-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128 .f32) (main_arg6 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x128 : Shape := ⟨2, ![100000, 128]⟩
abbrev S10000x64 : Shape := ⟨2, ![10000, 64]⟩
abbrev S10000x128 : Shape := ⟨2, ![10000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 76
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S64x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S10000x128_S10000x128 : S10000x128.ShapeCasts S10000x128
  broadcasts_S1x128_S10000x128 : S1x128.Broadcasts S10000x128
  reduces_S10000x128_S128 : S10000x128.Reduces [0] S128
  bcast_S_S1x128 : S_.BroadcastsInDim S1x128 (![] : Fin 0 → Fin S1x128.rank)
  dot_S10000x64_S64x128_S10000x128_1_0_0_1_n_n_wf : DotDims.WF S10000x64 S64x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_10 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call1_cst : Ref sig .tc := ⟨.hbm, 106, rfl⟩
abbrev main_call1_v0 : Ref sig .tc := ⟨.hbm, 107, rfl⟩
abbrev main_v65 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.K.Reg0.lean ====
import proofs.«118818_j27127013442152_1_alg».proof.Proof.K.Launch
import proofs.«118818_j27127013442152_1_alg».proof.Proof.Gen.Kernel.Skeleton
import proofs.«118818_j27127013442152_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

def out0_3 (x0 : Vec F S10000x64 .f32) (x1 : Vec F S64x128 .f32) : Vec F S10000x128 .f32 :=
  View.canon [⟨r0_2, k0_pay2 (View.ld x0 r0_0) (View.ld x1 r0_1)⟩]

def out0_4 (x0 : Vec F S10000x64 .f32) (x2 : Vec F S64x128 .f32) : Vec F S10000x128 .f32 :=
  View.canon [⟨r0_2, k0_pay3 (View.ld x0 r0_0) (View.ld x2 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

-- the body only reads its inputs
theorem before0 (c : Dev nD) (t : Fin cfg0.N) (w : Fin cfg0.W) (h : w.val < 3 := by decide) : ∀ d, (dat0 V c).before w t d = (dat0 V c).after w t :=
  match w, h with
  | ⟨0, _⟩, _ | ⟨1, _⟩, _ | ⟨2, _⟩, _ => fun d => by
    refine (dat0 V c).before_in_eq_fetched _ ?_ ?_ ?_ ?_ t d <;> intros <;> rfl
  | ⟨3, _⟩, h | ⟨4, _⟩, h => absurd h (by simp)

-- every input is loaded whole and every output stored whole, so each output is a function of the input blocks alone
set_option maxHeartbeats 1000000 in
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before0 V c t 0, before0 V c t 1, before0 V c t 2]
  dsimp only [dat0]
  sl_whnfR [defs₀, Defs.onTc]
  simp only [cc0__proj_kernel_eq_skeleton]; unfold cc0__proj_kernel_skel
  unfold owns
  iintro ⟨HΦ, Ho, ⟨%d0, %f0, %hf0, H0⟩, ⟨%d1, %f1, %hf1, H1⟩, ⟨%d2, %f2, %hf2, H2⟩, ⟨%d3, %f3, -, H3⟩, ⟨%d4, %f4, -, H4⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [← hf0, ← hf1]
    exact View.read_writes_eq_canon _ _ _ (View.cover_of_tiled _ S10000x128.size (by rfl))
  iexists _; isplitr
  swap; · iexact H4
  ipureintro
  rw [← hf0, ← hf2]
  exact View.read_writes_eq_canon _ _ _ (View.cover_of_tiled _ S10000x128.size (by rfl))

end Regions

end Cert.Kernel.Gen

end
-- ==== Proof.K.Reg1Runs.lean ====
import proofs.«118818_j27127013442152_1_alg».proof.Proof.K.Launch
import proofs.«118818_j27127013442152_1_alg».proof.Proof.Gen.Kernel.Skeleton
import proofs.«118818_j27127013442152_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

-- window w's block at point t, read off its array as the region finds it
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 0).val) 0#32)) 0#32) = 1#1

-- the body's branch is taken at the first point only
theorem hcond1_0 : ∀ t : Fin cfg1.N, cond1_0 (grid1.coords t) ↔ t.val % 10 = 0 :=
  (by decide +kernel : ∀ t : Fin grid1.N, cond1_0 (grid1.coords t) ↔ t.val % 10 = 0)

abbrev VO1_3 : View sig .tc .vmem S1x128 .f32 := (Memref.whole cc1_stg3_0 : Memref sig .tc .vmem S1x128 .f32).view
abbrev VO1_4 : View sig .tc .vmem S1x128 .f32 := (Memref.whole cc1_stg4_0 : Memref sig .tc .vmem S1x128 .f32).view

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)

abbrev scM1_0 : Memref sig .tc .vmem S1x128 .f32 := Memref.whole cc1_scratch0
abbrev scM1_1 : Memref sig .tc .vmem S1x128 .f32 := Memref.whole cc1_scratch1

abbrev VS1_0 : View sig .tc .vmem S1x128 .f32 := scM1_0.view
abbrev VS1_1 : View sig .tc .vmem S1x128 .f32 := scM1_1.view

abbrev anyBuf1 (c : Dev nD) (b : Ref sig .tc) : sProp 𝕄 :=
  iprop(∃ f : Buf (Elt F) ((c : Thread nD τ).loc b), ((c : Thread nD τ).loc b) ↦{fullShare} f)

-- everything the region's invariant holds besides the two accumulators
def Rest1 (c : Dev nD) : sProp 𝕄 :=
  iprop(anyBuf1 c cc0_stg0_0 ∗ anyBuf1 c cc0_stg0_1 ∗ anyBuf1 c cc0_stg1_0 ∗ anyBuf1 c cc0_stg2_0 ∗ anyBuf1 c cc0_stg3_0 ∗ anyBuf1 c cc0_stg3_1 ∗ anyBuf1 c cc0_stg4_0 ∗ anyBuf1 c cc0_stg4_1 ∗ anyBuf1 c cc2_stg0_0 ∗ anyBuf1 c cc2_stg0_1 ∗ anyBuf1 c cc2_stg1_0 ∗ anyBuf1 c cc2_stg1_1 ∗ anyBuf1 c cc2_stg2_0 ∗ anyBuf1 c cc2_stg3_0 ∗ anyBuf1 c cc2_stg4_0 ∗ anyBuf1 c cc2_stg5_0 ∗ anyBuf1 c cc2_stg6_0 ∗ anyBuf1 c cc2_stg7_0 ∗ anyBuf1 c cc2_stg7_1 ∗ ∃ r, prngReg c r)

theorem PhiA1_open (c : Dev nD) : (Pipeline.ΦA spec1 c : sProp 𝕄) ⊢ iprop((∃ d, owns (c : Thread nD τ) scM1_0 fullShare d) ∗ (∃ d, owns (c : Thread nD τ) scM1_1 fullShare d) ∗ Rest1 c) := by
  unfold Pipeline.ΦA Rest1; rw [scopedRest1_eq]; simp only [scM1_0, scM1_1, owns_whole]
  iintro ⟨⟨R0, R1, R2, R3, R4, R5, R6, R7, HS0, HS1, R10, R11, R12, R13, R14, R15, R16, R17, R18, R19, R20⟩, Hg⟩
  iframe

theorem PhiA1_close (c : Dev nD) (X Y : Vec F S1x128 .f32) : iprop(owns (c : Thread nD τ) scM1_0 fullShare X ∗ owns (c : Thread nD τ) scM1_1 fullShare Y ∗ Rest1 c) ⊢ (Pipeline.ΦA spec1 c : sProp 𝕄) := by
  unfold Pipeline.ΦA Rest1; rw [scopedRest1_eq]; simp only [scM1_0, scM1_1, owns_whole]
  iintro ⟨HS0, HS1, R0, R1, R2, R3, R4, R5, R6, R7, R10, R11, R12, R13, R14, R15, R16, R17, R18, R19, R20, Hg⟩
  iframe
  isplitl [HS0]; · iexists _; iexact HS0
  iexists _; iexact HS1

end Cert.Kernel.Gen

end
-- ==== Proof.K.Reg1RunA.lean ====
import proofs.«118818_j27127013442152_1_alg».proof.Proof.K.Reg1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S10000x128 .f32) (x1 : Vec F S10000x128 .f32) (x2 : Vec F S1x128 .f32) :
    Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Gen

end
-- ==== Proof.K.Reg1RunB.lean ====
import proofs.«118818_j27127013442152_1_alg».proof.Proof.K.Reg1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S10000x128 .f32) (x1 : Vec F S10000x128 .f32) (x2 : Vec F S1x128 .f32) (xs0 : Vec F S1x128 .f32) (xs1 : Vec F S1x128 .f32) :
    Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Gen

end
-- ==== Proof.K.Reg1.lean ====
import proofs.«118818_j27127013442152_1_alg».proof.Proof.K.Reg1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- store lists that tile the block cover it
theorem covers1 {P : List (View.Piece (Elt F) S1x128 .f32) → List (View.Piece (Elt F) S1x128 .f32) → List (View.Piece (Elt F) S1x128 .f32) → List (View.Piece (Elt F) S1x128 .f32) → Prop}
    (r : Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) // P L3 L4 LS0 LS1 })
    (h : (View.Piece.tiledL r.1 S1x128.size && View.Piece.tiledL r.2.1 S1x128.size && View.Piece.tiledL r.2.2.1 S1x128.size && View.Piece.tiledL r.2.2.2.1 S1x128.size) = true) :
    (∀ y, ∃ p ∈ r.1, y ∈ p.1.set) ∧ (∀ y, ∃ p ∈ r.2.1, y ∈ p.1.set) ∧ (∀ y, ∃ p ∈ r.2.2.1, y ∈ p.1.set) ∧ (∀ y, ∃ p ∈ r.2.2.2.1, y ∈ p.1.set) := by
  simp only [Bool.and_eq_true] at h
  exact ⟨View.cover_of_tiledL _ _ h.1.1.1, View.cover_of_tiledL _ _ h.1.1.2, View.cover_of_tiledL _ _ h.1.2, View.cover_of_tiledL _ _ h.2⟩

-- what a run's four store lists leave: output 3, output 4, the two accumulators
def runOuts1 {P : List (View.Piece (Elt F) S1x128 .f32) → List (View.Piece (Elt F) S1x128 .f32) → List (View.Piece (Elt F) S1x128 .f32) → List (View.Piece (Elt F) S1x128 .f32) → Prop} (r : Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) // P L3 L4 LS0 LS1 }) : Vec F S1x128 .f32 × Vec F S1x128 .f32 × Vec F S1x128 .f32 × Vec F S1x128 .f32 :=
  (VS1_0.read (Elt F) (VS1_0.writes (Elt F) VS1_0.junk r.1), VS1_0.read (Elt F) (VS1_0.writes (Elt F) VS1_0.junk r.2.1), VS1_0.read (Elt F) (VS1_0.writes (Elt F) VS1_0.junk r.2.2.1), VS1_0.read (Elt F) (VS1_0.writes (Elt F) VS1_0.junk r.2.2.2.1))

section Region1

variable (V : (c : Dev nD) → (b : Ref sig .tc) → Buf (Elt F) ((c : Thread nD τ).loc b))

-- the body's run at point t: at the first point from the point's blocks alone, later also from what the accumulators held
abbrev run1_A (c : Dev nD) (t : Fin cfg1.N) (h0 : t.val % 10 = 0) :=
  kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t)
abbrev run1_B (c : Dev nD) (t : Fin cfg1.N) (h0 : ¬t.val % 10 = 0) (xs0 xs1 : Vec F S1x128 .f32) :=
  kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) xs0 xs1

-- the four contents after point n: the first point starts from zero, a later one adds to what the point before left
def outsAt1 (c : Dev nD) : (n : ℕ) → n < cfg1.N → Vec F S1x128 .f32 × Vec F S1x128 .f32 × Vec F S1x128 .f32 × Vec F S1x128 .f32
  | 0, hn => runOuts1 (run1_A V c ⟨0, hn⟩ (Nat.zero_mod _))
  | n + 1, hn => runOuts1 (run1_B V c ⟨n + 1, hn⟩ (by have hN : n + 1 < 10 := lt_of_lt_of_eq hn (show cfg1.N = 10 from N_1); omega : ¬(n + 1) % 10 = 0)
      (outsAt1 c n (Nat.lt_of_succ_lt hn)).2.2.1 (outsAt1 c n (Nat.lt_of_succ_lt hn)).2.2.2)

theorem outsAt1_A (c : Dev nD) (t : Fin cfg1.N) (h0 : t.val % 10 = 0) : outsAt1 V c t.val t.isLt = runOuts1 (run1_A V c t h0) := by
  obtain ⟨n, hn⟩ := t
  cases n with
  | zero => exact rfl
  | succ n => exact (by exfalso; have hN : n + 1 < 10 := lt_of_lt_of_eq hn (show cfg1.N = 10 from N_1); (try dsimp only at h0); omega)

theorem outsAt1_B (c : Dev nD) (t : Fin cfg1.N) (h0 : ¬t.val % 10 = 0) :
    outsAt1 V c t.val t.isLt = runOuts1 (run1_B V c t h0 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact rfl

-- before the first point the two accumulators hold anything, before point n + 1 what point n left
def PhiS1 (c : Dev nD) : (n : ℕ) → n ≤ cfg1.N → sProp 𝕄
  | 0, _ => iprop((∃ d, owns (c : Thread nD τ) scM1_0 fullShare d) ∗ (∃ d, owns (c : Thread nD τ) scM1_1 fullShare d) ∗ Rest1 c)
  | n + 1, hn => iprop(owns (c : Thread nD τ) scM1_0 fullShare (outsAt1 V c n hn).2.2.1 ∗ owns (c : Thread nD τ) scM1_1 fullShare (outsAt1 V c n hn).2.2.2 ∗ Rest1 c)

theorem PhiS1_zero (c : Dev nD) (n : ℕ) (h : n ≤ cfg1.N) (hz : n = 0) :
    PhiS1 V c n h = iprop((∃ d, owns (c : Thread nD τ) scM1_0 fullShare d) ∗ (∃ d, owns (c : Thread nD τ) scM1_1 fullShare d) ∗ Rest1 c) := by
  subst hz; rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ Rest1 c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

-- stores that cover a block fix what it holds, whatever it held before
theorem owns_of_cover1 {c : Dev nD} {M : Memref sig .tc .vmem S1x128 .f32} (v : View sig .tc .vmem S1x128 .f32) {L : List (View.Piece (Elt F) S1x128 .f32)}
    (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩; unfold owns; iexists _; isplitr
  swap; · iexact H
  ipureintro; exact View.read_writes_of_cover _ _ _ _ _ h

-- either case: the body takes its seven operands and leaves each written block at the contents its stores fix
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl,
    show PhiS1 V c (t.val + 1) t.isLt = iprop(owns (c : Thread nD τ) scM1_0 fullShare (outsAt1 V c t.val t.isLt).2.2.1 ∗ owns (c : Thread nD τ) scM1_1 fullShare (outsAt1 V c t.val t.isLt).2.2.2 ∗ Rest1 c) from rfl]
  rw [after1_0, after1_1, after1_2, after1_3, after1_4]
  have hN : t.val < 10 := lt_of_lt_of_eq t.isLt (show cfg1.N = 10 from N_1)
  by_cases h0 : t.val % 10 = 0
  on_goal 1 =>
    rw [outsAt1_A V c t h0]; unfold runOuts1; (try dsimp only)
    rw [PhiS1_castSucc V c t, PhiS1_zero V c _ _ (by omega)]
    iintro ⟨⟨HS0, HS1, HR⟩, Ho, ⟨%d0, H0⟩, ⟨%d1, H1⟩, ⟨%d2, H2⟩, ⟨%d3, H3⟩, ⟨%d4, H4⟩⟩
    have hc := covers1 (run1_A V c t h0) (by sl_kernel_rfl)
    iapply ((run1_A V c t h0).2.2.2.2 Set.univ _)
  on_goal 2 =>
    rw [outsAt1_B V c t h0]; unfold runOuts1; (try dsimp only)
    rw [PhiS1_castSucc V c t, PhiS1_pos V c _ _ (by omega)]
    iintro ⟨⟨HS0, HS1, HR⟩, Ho, ⟨%d0, H0⟩, ⟨%d1, H1⟩, ⟨%d2, H2⟩, ⟨%d3, H3⟩, ⟨%d4, H4⟩⟩
    have hc := covers1 (run1_B V c t h0 (outsAt1 V c (t.val - 1) (Nat.lt_of_le_of_lt (Nat.sub_le _ _) t.isLt)).2.2.1 (outsAt1 V c (t.val - 1) (Nat.lt_of_le_of_lt (Nat.sub_le _ _) t.isLt)).2.2.2) (by sl_kernel_rfl)
    iapply ((run1_B V c t h0 _ _).2.2.2.2 Set.univ _)
  all_goals
    iframe H0 H1 H2 HS0 HS1
    isplitl [H3]; · iexists _; iexact H3
    isplitl [H4]; · iexists _; iexact H4
    iintro ⟨H0, H1, H2, H3, H4, HS0, HS1⟩
    iframe H0 H1 H2 Ho HR
    isplitl [HS0 HS1]
    · isplitl [HS0]; · iapply owns_of_cover1 _ hc.2.2.1; iexact HS0
      iapply owns_of_cover1 _ hc.2.2.2; iexact HS1
    isplitl [H3]; · iapply owns_of_cover1 _ hc.1; iexact H3
    iapply owns_of_cover1 _ hc.2.1; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega)]
  exact PhiA1_close c _ _

end Region1

end Cert.Kernel.Gen

end
-- ==== Proof.K.Reg2.lean ====
import proofs.«118818_j27127013442152_1_alg».proof.Proof.K.Launch
import proofs.«118818_j27127013442152_1_alg».proof.Proof.Gen.Kernel.Skeleton
import proofs.«118818_j27127013442152_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

def out2_7 (x0 : Vec F S10000x128 .f32) (x1 : Vec F S10000x128 .f32) (x2 : Vec F S1x128 .f32) (x3 : Vec F S1x128 .f32) (x4 : Vec F S1x128 .f32) (x5 : Vec F S1x128 .f32) (x6 : Vec F S1x128 .f32) : Vec F S10000x128 .f32 :=
  View.canon [⟨r2_0, k2_pay1 (View.ld x0 r2_0) (View.ld x1 r2_0) (View.ld x2 r2_1) (View.ld x3 r2_1) (View.ld x4 r2_1) (View.ld x5 r2_1) (View.ld x6 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

-- the body only reads its inputs
theorem before2 (c : Dev nD) (t : Fin cfg2.N) (w : Fin cfg2.W) (h : w.val < 7 := by decide) : ∀ d, (dat2 V c).before w t d = (dat2 V c).after w t :=
  match w, h with
  | ⟨0, _⟩, _ | ⟨1, _⟩, _ | ⟨2, _⟩, _ | ⟨3, _⟩, _ | ⟨4, _⟩, _ | ⟨5, _⟩, _ | ⟨6, _⟩, _ => fun d => by
    refine (dat2 V c).before_in_eq_fetched _ ?_ ?_ ?_ ?_ t d <;> intros <;> rfl
  | ⟨7, _⟩, h => absurd h (by simp)

-- every input is loaded whole and every output stored whole, so each output is a function of the input blocks alone
set_option maxHeartbeats 1000000 in
theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  simp only [before2 V c t 0, before2 V c t 1, before2 V c t 2, before2 V c t 3, before2 V c t 4, before2 V c t 5, before2 V c t 6]
  dsimp only [dat2]
  sl_whnfR [defs₀, Defs.onTc]
  simp only [cc2__norm_kernel_eq_skeleton]; unfold cc2__norm_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  iexists _; isplitr
  swap; · iexact H7
  ipureintro
  rw [← hf0, ← hf1, ← hf2, ← hf3, ← hf4, ← hf5, ← hf6]
  exact View.read_writes_eq_canon _ _ _ (View.cover_of_tiled _ S10000x128.size (by rfl))

end Region2

end Cert.Kernel.Gen

end
-- ==== Proof.K.Run.lean ====
import proofs.«118818_j27127013442152_1_alg».proof.Proof.K.Launch
import proofs.«118818_j27127013442152_1_alg».proof.Proof.K.Reg0
import proofs.«118818_j27127013442152_1_alg».proof.Proof.K.Reg1
import proofs.«118818_j27127013442152_1_alg».proof.Proof.K.Reg2

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hostOps0_W : List (Ref sig .tc) := [main_v0, main_v1, main_v2, main_v3, main_v4, main_v5, main_v6]
abbrev hostOps1_W : List (Ref sig .tc) := [main_cst, main_v8, main_cst_0, main_v9, main_v10, main_v11, main_v12, main_c, main_v13, main_v14, main_c_1, main_v15, main_v16, main_v17, main_v18, main_v19, main_c_2, main_v20, main_v21, main_c_3, main_v22, main_v23, main_v24, main_v25, main_v26, main_v27, main_c_4, main_v28, main_v29, main_c_5, main_v30, main_v31, main_v32, main_v33, main_v34, main_v35, main_v36, main_v37, main_cst_6, main_v38, main_v39, main_v40, main_v41, main_v42, main_v43]
abbrev hostOps2_W : List (Ref sig .tc) := [main_cst_7, main_v45, main_v46, main_cst_8, main_v47, main_v48, main_v49, main_v50, main_cst_9, main_v51, main_v52, main_v53]

/-- A line of operations that each write one reference of `W` leaves every other reference as it was. -/
theorem keeps (ops : List (HloOp τ sig (Elt F))) {W : List (Ref sig .tc)} (V : Valuation τ sig (Elt F)) {r : Ref sig .tc} (h : r ∉ W)
    (hW : ops.Forall fun op => op.writes ⊆ (W.map (Proc.devRef (τ := τ) .tc)).toFinset := by
      simp only [List.Forall]; (repeat' apply And.intro); all_goals exact Finset.singleton_subset_iff.2 (List.mem_toFinset.2 (List.mem_map_of_mem (by decide)))) :
    StableHlo.after ops V (Proc.devRef .tc r) = V (Proc.devRef .tc r) :=
  StableHlo.after_of_writes_sub ops V hW h

/-- `withArrays` of the exit contents changes no reference that is an input window's array (`arrAt_in`) or no array at all. -/
theorem withArrays_in {cfg : Cfg sig Λ₀} (hinj : Function.Injective (Pipeline.arrRef cfg.spec)) (c : Dev nD)
    (dat : Dat τ (Elt F) Unit ℕ (UR sig nD τ) ℕ cfg c) (V : Valuation τ sig (Elt F))
    (hA : ∀ w, dat.A w = V (Proc.devRef .tc (Pipeline.arrRef cfg.spec w))) (r : Ref sig .tc)
    (h : ∀ w, Pipeline.arrRef cfg.spec w = r → (cfg.win w).isOut = false) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    exact (Pipeline.withArrays_arr _ hinj c _ _ w).trans ((dat.arrAt_in w (h w rfl) _).trans (hA w))
  · exact Pipeline.withArrays_of_ne _ c _ _ r fun w e => hr ⟨w, e⟩

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  keeps hostOps0 _ h

def W2 (c : Dev nD) : Valuation τ sig (Elt F) :=
  Pipeline.withArrays spec0 c (W1 m ρ c) fun w => (dat0 (V1 m ρ) c).arrAt w cfg0.N
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) :
    W5 m ρ c (Proc.devRef .tc r) = W4 m ρ c (Proc.devRef .tc r) :=
  keeps hostOps2 _ h

def W6 (c : Dev nD) : Valuation τ sig (Elt F) :=
  Pipeline.withArrays spec2 c (W5 m ρ c) fun w => (dat2 (V5 m ρ) c).arrAt w cfg2.N

theorem W2_main_v7_0 (c : Dev nD) : W2 m ρ c (Proc.devRef .tc main_v7_0) = (dat0 (V1 m ρ) c).arrAt 3 cfg0.N :=
  Pipeline.withArrays_arr spec0 launch0.win.arr_inj c _ _ 3
theorem W2_main_v7_1 (c : Dev nD) : W2 m ρ c (Proc.devRef .tc main_v7_1) = (dat0 (V1 m ρ) c).arrAt 4 cfg0.N :=
  Pipeline.withArrays_arr spec0 launch0.win.arr_inj c _ _ 4
theorem W4_main_v44_0 (c : Dev nD) : W4 m ρ c (Proc.devRef .tc main_v44_0) = (dat1 (V3 m ρ) c).arrAt 3 cfg1.N := W4_arr m ρ c 3
theorem W4_main_v44_1 (c : Dev nD) : W4 m ρ c (Proc.devRef .tc main_v44_1) = (dat1 (V3 m ρ) c).arrAt 4 cfg1.N := W4_arr m ρ c 4
theorem W6_main_v54 (c : Dev nD) : W6 m ρ c (Proc.devRef .tc main_v54) = (dat2 (V5 m ρ) c).arrAt 7 cfg2.N :=
  Pipeline.withArrays_arr spec2 launch2.win.arr_inj c _ _ 7

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The contents after region `p` entered at `Wi`: its arrays at `arrAt … N`, every other reference as entered. -/
abbrev Wx (p : Fin 3) (Wi : Dev nD → Valuation τ sig (Elt F)) (c : Dev nD) : Valuation τ sig (Elt F) :=
  Pipeline.withArrays (cfgs p).spec c (Wi c) fun w => (pdats m ρ p c).arrAt w (cfgs p).N

theorem plain (p : Fin 3) (c : Dev nD) : (∀ t, (pdats m ρ p c).owed t = 0) ∧ (∀ x, x ∈ (pdats m ρ p c).recorded 0) ∧ ∀ w, (pdats m ρ p c).q w = fullShare := by
  fin_cases p <;> exact ⟨fun _ => rfl, fun _ => trivial, fun _ => rfl⟩

set_option backward.isDefEq.respectTransparency.types false in
/-- Region `p` as a segment from the contents `Wi` to `Wx p Wi`: its arrays are split out of what is held and put back as the region leaves them. -/
def reg (p : Fin 3) (lf : Pipeline.LaunchFacts (nD := nD) (τ := τ) cfgs p) (Wi : Dev nD → Valuation τ sig (Elt F))
    (hb : ∀ c, BodyObligation (pdats m ρ p c) (defs₀ (F := F)) Variants.none () Set.univ)
    (hA : ∀ c w, (pdats m ρ p c).A w = Wi c (Pipeline.arrRef (cfgs p).spec w))
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (plain m ρ p c).1
  pre c := iprop(StableHlo.held (c : Thread nD τ) (Pipeline.ucRefs τ sig) (Wi c) ∗ R c)
  post c := iprop(StableHlo.held (c : Thread nD τ) (Pipeline.ucRefs τ sig) (Wx m ρ p Wi c) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (plain m ρ p c).2.2) (fun b => Wi c b) (hA c)
    rw [Pipeline.unscopedBufs_held] at hsplit
    iintro ⟨⟨Hub, Hp, HO⟩, -, -⟩
    icases hsplit $$ Hub with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin
      rw [(plain m ρ p c).1]
      icases HO with ⟨%W, HO⟩; iexists W; isplitr; · ipureintro; exact fun x _ => Or.inl ((plain m ρ p c).2.1 x)
      iexact HO
    iframe
  hin c := by
    refine BIBase.Entails.trans ?_ (hin c)
    unfold Pipeline.ΦA
    iintro ⟨Hp, -, Hr⟩
    iframe
  hout c := by
    rw [Pipeline.ownSems0_none]
    refine BIBase.Entails.trans (hout c) ?_
    unfold Pipeline.ΦA
    iintro ⟨Hr, Hp⟩
    iframe; iempintro
  hexit c := by
    have hjoin := Pipeline.unscopedBufs_of_arrays (p := p) (pcfgs (F := F)) adm lf.win lf.arr_whole c (pdats m ρ) ((pdats m ρ p c).share_full (plain m ρ p c).2.2)
      (fun b => Wi c b) (fun b => Wx m ρ p Wi c b) ((pdats m ρ p c).arrAt · (cfgs p).N)
      (fun w => (Pipeline.withArrays_arr (cfgs p).spec lf.win.arr_inj c (Wi c) (fun w => (pdats m ρ p c).arrAt w (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(plain m ρ p c).1]
    icases HO with ⟨%W, -, HO⟩; iexists W; iexact HO

abbrev segs : List (Pipeline.Seg (pcfgs (F := F)) adm (pdats m ρ) () defs₀ 𝒱₀ L lv) :=
  [ .host (hseg hostOps0 hostOps0_sub (W0 m ρ)),
    .region (reg m ρ 0 launch0 (W1 m ρ) (body_obligation0 _) (A_eq0 _) (fun _ => .rfl) fun _ => .rfl),
    .host (hseg hostOps1 hostOps1_sub (W2 m ρ)),
    .region (reg m ρ 1 launch1 (W3 m ρ) (body_obligation1 _) (A_eq1 _) (hin1 _) (hout1 _)),
    .host (hseg hostOps2 hostOps2_sub (W4 m ρ)),
    .region (reg m ρ 2 launch2 (W5 m ρ) (body_obligation2 _) (A_eq2 _) (fun _ => .rfl) fun _ => .rfl) ]

theorem main_run (c : Dev nD) : main (F := F) c = Pipeline.Seg.run (segs m ρ) := by
  rw [main_chain c, Pipeline.Seg.run_eq_chain]
  rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- In a memory that agrees with `W6`, a reference no host stretch writes and no output window has as its array reads as launched. -/
theorem arg_kept {s : MemSt nD τ sig (Elt F)} {c : Dev nD}
    (hs : ∀ b ∈ Pipeline.ucRefs τ sig, s.mem ((c : Thread nD τ).1, b) = W6 m ρ c b) (r : Ref sig .tc)
    (h : (¬ (Proc.devRef .tc r : DevRef τ sig).isScoped ∧ r ∉ hostOps0_W ∧ r ∉ hostOps1_W ∧ r ∉ hostOps2_W)
      ∧ (∀ w, Pipeline.arrRef spec0 w = r → (cfg0.win w).isOut = false)
      ∧ (∀ w, Pipeline.arrRef spec1 w = r → (cfg1.win w).isOut = false)
      ∧ ∀ w, Pipeline.arrRef spec2 w = r → (cfg2.win w).isOut = false) :
    s.mem ((c.tc : Thread nD τ).loc r) = m ((c.tc : Thread nD τ).loc r) :=
  (hs _ (mem_uc r h.1.1)).trans <|
  (withArrays_in launch2.win.arr_inj c (dat2 (V5 m ρ) c) (W5 m ρ c) (A_eq2 _ c) r h.2.2.2).trans <|
  (W5_of m ρ c r h.1.2.2.2).trans <|
  (withArrays_in launch1.win.arr_inj c (dat1 (V3 m ρ) c) (W3 m ρ c) (A_eq1 _ c) r h.2.2.1).trans <|
  (keeps hostOps1 _ h.1.2.2.1).trans <|
  (withArrays_in launch0.win.arr_inj c (dat0 (V1 m ρ) c) (W1 m ρ c) (A_eq0 _ c) r h.2.1).trans (W1_of m ρ c r h.1.2.1)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun r h c =>
    ⟨arg_kept m ρ (h c) main_arg0 (by decide),
     arg_kept m ρ (h c) main_arg1 (by decide),
     arg_kept m ρ (h c) main_arg2 (by decide),
     arg_kept m ρ (h c) main_arg3 (by decide),
     arg_kept m ρ (h c) main_arg4 (by decide),
     arg_kept m ρ (h c) main_arg5 (by decide),
     arg_kept m ρ (h c) main_arg6 (by decide)⟩

end Cert.Kernel.Gen

end
-- ==== Proof.KI.Reg0.lean ====
import proofs.«118818_j27127013442152_1_alg».proof.Proof.KI.Launch
import proofs.«118818_j27127013442152_1_alg».proof.Proof.Gen.KernelIdeal.Skeleton
import proofs.«118818_j27127013442152_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

def out0_3 (x0 : Vec F S10000x64 .f32) (x1 : Vec F S64x128 .f32) : Vec F S10000x128 .f32 :=
  View.canon [⟨r0_2, k0_pay2 (View.ld x0 r0_0) (View.ld x1 r0_1)⟩]

def out0_4 (x0 : Vec F S10000x64 .f32) (x2 : Vec F S64x128 .f32) : Vec F S10000x128 .f32 :=
  View.canon [⟨r0_2, k0_pay3 (View.ld x0 r0_0) (View.ld x2 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

-- the body only reads its inputs
theorem before0 (c : Dev nD) (t : Fin cfg0.N) (w : Fin cfg0.W) (h : w.val < 3 := by decide) : ∀ d, (dat0 V c).before w t d = (dat0 V c).after w t :=
  match w, h with
  | ⟨0, _⟩, _ | ⟨1, _⟩, _ | ⟨2, _⟩, _ => fun d => by
    refine (dat0 V c).before_in_eq_fetched _ ?_ ?_ ?_ ?_ t d <;> intros <;> rfl
  | ⟨3, _⟩, h | ⟨4, _⟩, h => absurd h (by simp)

-- every input is loaded whole and every output stored whole, so each output is a function of the input blocks alone
set_option maxHeartbeats 1000000 in
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before0 V c t 0, before0 V c t 1, before0 V c t 2]
  dsimp only [dat0]
  sl_whnfR [defs₀, Defs.onTc]
  simp only [cc0__proj_kernel_eq_skeleton]; unfold cc0__proj_kernel_skel
  unfold owns
  iintro ⟨HΦ, Ho, ⟨%d0, %f0, %hf0, H0⟩, ⟨%d1, %f1, %hf1, H1⟩, ⟨%d2, %f2, %hf2, H2⟩, ⟨%d3, %f3, -, H3⟩, ⟨%d4, %f4, -, H4⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [← hf0, ← hf1]
    exact View.read_writes_eq_canon _ _ _ (View.cover_of_tiled _ S10000x128.size (by rfl))
  iexists _; isplitr
  swap; · iexact H4
  ipureintro
  rw [← hf0, ← hf2]
  exact View.read_writes_eq_canon _ _ _ (View.cover_of_tiled _ S10000x128.size (by rfl))

end Regions

end Cert.KernelIdeal.Gen

end
-- ==== Proof.KI.Reg1Runs.lean ====
import proofs.«118818_j27127013442152_1_alg».proof.Proof.KI.Launch
import proofs.«118818_j27127013442152_1_alg».proof.Proof.Gen.KernelIdeal.Skeleton
import proofs.«118818_j27127013442152_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

-- window w's block at point t, read off its array as the region finds it
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 0).val) 0#32)) 0#32) = 1#1

-- the body's branch is taken at the first point only
theorem hcond1_0 : ∀ t : Fin cfg1.N, cond1_0 (grid1.coords t) ↔ t.val % 10 = 0 :=
  (by decide +kernel : ∀ t : Fin grid1.N, cond1_0 (grid1.coords t) ↔ t.val % 10 = 0)

abbrev VO1_3 : View sig .tc .vmem S1x128 .f32 := (Memref.whole cc1_stg3_0 : Memref sig .tc .vmem S1x128 .f32).view
abbrev VO1_4 : View sig .tc .vmem S1x128 .f32 := (Memref.whole cc1_stg4_0 : Memref sig .tc .vmem S1x128 .f32).view

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)

abbrev scM1_0 : Memref sig .tc .vmem S1x128 .f32 := Memref.whole cc1_scratch0
abbrev scM1_1 : Memref sig .tc .vmem S1x128 .f32 := Memref.whole cc1_scratch1

abbrev VS1_0 : View sig .tc .vmem S1x128 .f32 := scM1_0.view
abbrev VS1_1 : View sig .tc .vmem S1x128 .f32 := scM1_1.view

abbrev anyBuf1 (c : Dev nD) (b : Ref sig .tc) : sProp 𝕄 :=
  iprop(∃ f : Buf (Elt F) ((c : Thread nD τ).loc b), ((c : Thread nD τ).loc b) ↦{fullShare} f)

-- everything the region's invariant holds besides the two accumulators
def Rest1 (c : Dev nD) : sProp 𝕄 :=
  iprop(anyBuf1 c cc0_stg0_0 ∗ anyBuf1 c cc0_stg0_1 ∗ anyBuf1 c cc0_stg1_0 ∗ anyBuf1 c cc0_stg2_0 ∗ anyBuf1 c cc0_stg3_0 ∗ anyBuf1 c cc0_stg3_1 ∗ anyBuf1 c cc0_stg4_0 ∗ anyBuf1 c cc0_stg4_1 ∗ anyBuf1 c cc2_stg0_0 ∗ anyBuf1 c cc2_stg0_1 ∗ anyBuf1 c cc2_stg1_0 ∗ anyBuf1 c cc2_stg1_1 ∗ anyBuf1 c cc2_stg2_0 ∗ anyBuf1 c cc2_stg3_0 ∗ anyBuf1 c cc2_stg4_0 ∗ anyBuf1 c cc2_stg5_0 ∗ anyBuf1 c cc2_stg6_0 ∗ anyBuf1 c cc2_stg7_0 ∗ anyBuf1 c cc2_stg7_1 ∗ ∃ r, prngReg c r)

theorem PhiA1_open (c : Dev nD) : (Pipeline.ΦA spec1 c : sProp 𝕄) ⊢ iprop((∃ d, owns (c : Thread nD τ) scM1_0 fullShare d) ∗ (∃ d, owns (c : Thread nD τ) scM1_1 fullShare d) ∗ Rest1 c) := by
  unfold Pipeline.ΦA Rest1; rw [scopedRest1_eq]; simp only [scM1_0, scM1_1, owns_whole]
  iintro ⟨⟨R0, R1, R2, R3, R4, R5, R6, R7, HS0, HS1, R10, R11, R12, R13, R14, R15, R16, R17, R18, R19, R20⟩, Hg⟩
  iframe

theorem PhiA1_close (c : Dev nD) (X Y : Vec F S1x128 .f32) : iprop(owns (c : Thread nD τ) scM1_0 fullShare X ∗ owns (c : Thread nD τ) scM1_1 fullShare Y ∗ Rest1 c) ⊢ (Pipeline.ΦA spec1 c : sProp 𝕄) := by
  unfold Pipeline.ΦA Rest1; rw [scopedRest1_eq]; simp only [scM1_0, scM1_1, owns_whole]
  iintro ⟨HS0, HS1, R0, R1, R2, R3, R4, R5, R6, R7, R10, R11, R12, R13, R14, R15, R16, R17, R18, R19, R20, Hg⟩
  iframe
  isplitl [HS0]; · iexists _; iexact HS0
  iexists _; iexact HS1

end Cert.KernelIdeal.Gen

end
-- ==== Proof.KI.Reg1RunA.lean ====
import proofs.«118818_j27127013442152_1_alg».proof.Proof.KI.Reg1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S10000x128 .f32) (x1 : Vec F S10000x128 .f32) (x2 : Vec F S1x128 .f32) :
    Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Gen

end
-- ==== Proof.KI.Reg1RunB.lean ====
import proofs.«118818_j27127013442152_1_alg».proof.Proof.KI.Reg1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S10000x128 .f32) (x1 : Vec F S10000x128 .f32) (x2 : Vec F S1x128 .f32) (xs0 : Vec F S1x128 .f32) (xs1 : Vec F S1x128 .f32) :
    Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Gen

end
-- ==== Proof.KI.Reg1.lean ====
import proofs.«118818_j27127013442152_1_alg».proof.Proof.KI.Reg1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- store lists that tile the block cover it
theorem covers1 {P : List (View.Piece (Elt F) S1x128 .f32) → List (View.Piece (Elt F) S1x128 .f32) → List (View.Piece (Elt F) S1x128 .f32) → List (View.Piece (Elt F) S1x128 .f32) → Prop}
    (r : Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) // P L3 L4 LS0 LS1 })
    (h : (View.Piece.tiledL r.1 S1x128.size && View.Piece.tiledL r.2.1 S1x128.size && View.Piece.tiledL r.2.2.1 S1x128.size && View.Piece.tiledL r.2.2.2.1 S1x128.size) = true) :
    (∀ y, ∃ p ∈ r.1, y ∈ p.1.set) ∧ (∀ y, ∃ p ∈ r.2.1, y ∈ p.1.set) ∧ (∀ y, ∃ p ∈ r.2.2.1, y ∈ p.1.set) ∧ (∀ y, ∃ p ∈ r.2.2.2.1, y ∈ p.1.set) := by
  simp only [Bool.and_eq_true] at h
  exact ⟨View.cover_of_tiledL _ _ h.1.1.1, View.cover_of_tiledL _ _ h.1.1.2, View.cover_of_tiledL _ _ h.1.2, View.cover_of_tiledL _ _ h.2⟩

-- what a run's four store lists leave: output 3, output 4, the two accumulators
def runOuts1 {P : List (View.Piece (Elt F) S1x128 .f32) → List (View.Piece (Elt F) S1x128 .f32) → List (View.Piece (Elt F) S1x128 .f32) → List (View.Piece (Elt F) S1x128 .f32) → Prop} (r : Σ' (L3 : List (View.Piece (Elt F) S1x128 .f32)), Σ' (L4 : List (View.Piece (Elt F) S1x128 .f32)), Σ' (LS0 : List (View.Piece (Elt F) S1x128 .f32)), { LS1 : List (View.Piece (Elt F) S1x128 .f32) // P L3 L4 LS0 LS1 }) : Vec F S1x128 .f32 × Vec F S1x128 .f32 × Vec F S1x128 .f32 × Vec F S1x128 .f32 :=
  (VS1_0.read (Elt F) (VS1_0.writes (Elt F) VS1_0.junk r.1), VS1_0.read (Elt F) (VS1_0.writes (Elt F) VS1_0.junk r.2.1), VS1_0.read (Elt F) (VS1_0.writes (Elt F) VS1_0.junk r.2.2.1), VS1_0.read (Elt F) (VS1_0.writes (Elt F) VS1_0.junk r.2.2.2.1))

section Region1

variable (V : (c : Dev nD) → (b : Ref sig .tc) → Buf (Elt F) ((c : Thread nD τ).loc b))

-- the body's run at point t: at the first point from the point's blocks alone, later also from what the accumulators held
abbrev run1_A (c : Dev nD) (t : Fin cfg1.N) (h0 : t.val % 10 = 0) :=
  kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (iblk1 V c 0 t) (iblk1 V c 1 t) (iblk1 V c 2 t)
abbrev run1_B (c : Dev nD) (t : Fin cfg1.N) (h0 : ¬t.val % 10 = 0) (xs0 xs1 : Vec F S1x128 .f32) :=
  kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (iblk1 V c 0 t) (iblk1 V c 1 t) (iblk1 V c 2 t) xs0 xs1

-- the four contents after point n: the first point starts from zero, a later one adds to what the point before left
def outsAt1 (c : Dev nD) : (n : ℕ) → n < cfg1.N → Vec F S1x128 .f32 × Vec F S1x128 .f32 × Vec F S1x128 .f32 × Vec F S1x128 .f32
  | 0, hn => runOuts1 (run1_A V c ⟨0, hn⟩ (Nat.zero_mod _))
  | n + 1, hn => runOuts1 (run1_B V c ⟨n + 1, hn⟩ (by have hN : n + 1 < 10 := lt_of_lt_of_eq hn (show cfg1.N = 10 from N_1); omega : ¬(n + 1) % 10 = 0)
      (outsAt1 c n (Nat.lt_of_succ_lt hn)).2.2.1 (outsAt1 c n (Nat.lt_of_succ_lt hn)).2.2.2)

theorem outsAt1_A (c : Dev nD) (t : Fin cfg1.N) (h0 : t.val % 10 = 0) : outsAt1 V c t.val t.isLt = runOuts1 (run1_A V c t h0) := by
  obtain ⟨n, hn⟩ := t
  cases n with
  | zero => exact rfl
  | succ n => exact (by exfalso; have hN : n + 1 < 10 := lt_of_lt_of_eq hn (show cfg1.N = 10 from N_1); (try dsimp only at h0); omega)

theorem outsAt1_B (c : Dev nD) (t : Fin cfg1.N) (h0 : ¬t.val % 10 = 0) :
    outsAt1 V c t.val t.isLt = runOuts1 (run1_B V c t h0 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact rfl

-- before the first point the two accumulators hold anything, before point n + 1 what point n left
def PhiS1 (c : Dev nD) : (n : ℕ) → n ≤ cfg1.N → sProp 𝕄
  | 0, _ => iprop((∃ d, owns (c : Thread nD τ) scM1_0 fullShare d) ∗ (∃ d, owns (c : Thread nD τ) scM1_1 fullShare d) ∗ Rest1 c)
  | n + 1, hn => iprop(owns (c : Thread nD τ) scM1_0 fullShare (outsAt1 V c n hn).2.2.1 ∗ owns (c : Thread nD τ) scM1_1 fullShare (outsAt1 V c n hn).2.2.2 ∗ Rest1 c)

theorem PhiS1_zero (c : Dev nD) (n : ℕ) (h : n ≤ cfg1.N) (hz : n = 0) :
    PhiS1 V c n h = iprop((∃ d, owns (c : Thread nD τ) scM1_0 fullShare d) ∗ (∃ d, owns (c : Thread nD τ) scM1_1 fullShare d) ∗ Rest1 c) := by
  subst hz; rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ Rest1 c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

-- stores that cover a block fix what it holds, whatever it held before
theorem owns_of_cover1 {c : Dev nD} {M : Memref sig .tc .vmem S1x128 .f32} (v : View sig .tc .vmem S1x128 .f32) {L : List (View.Piece (Elt F) S1x128 .f32)}
    (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩; unfold owns; iexists _; isplitr
  swap; · iexact H
  ipureintro; exact View.read_writes_of_cover _ _ _ _ _ h

-- either case: the body takes its seven operands and leaves each written block at the contents its stores fix
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl,
    show PhiS1 V c (t.val + 1) t.isLt = iprop(owns (c : Thread nD τ) scM1_0 fullShare (outsAt1 V c t.val t.isLt).2.2.1 ∗ owns (c : Thread nD τ) scM1_1 fullShare (outsAt1 V c t.val t.isLt).2.2.2 ∗ Rest1 c) from rfl]
  rw [after1_0, after1_1, after1_2, after1_3, after1_4]
  have hN : t.val < 10 := lt_of_lt_of_eq t.isLt (show cfg1.N = 10 from N_1)
  by_cases h0 : t.val % 10 = 0
  on_goal 1 =>
    rw [outsAt1_A V c t h0]; unfold runOuts1; (try dsimp only)
    rw [PhiS1_castSucc V c t, PhiS1_zero V c _ _ (by omega)]
    iintro ⟨⟨HS0, HS1, HR⟩, Ho, ⟨%d0, H0⟩, ⟨%d1, H1⟩, ⟨%d2, H2⟩, ⟨%d3, H3⟩, ⟨%d4, H4⟩⟩
    have hc := covers1 (run1_A V c t h0) (by sl_kernel_rfl)
    iapply ((run1_A V c t h0).2.2.2.2 Set.univ _)
  on_goal 2 =>
    rw [outsAt1_B V c t h0]; unfold runOuts1; (try dsimp only)
    rw [PhiS1_castSucc V c t, PhiS1_pos V c _ _ (by omega)]
    iintro ⟨⟨HS0, HS1, HR⟩, Ho, ⟨%d0, H0⟩, ⟨%d1, H1⟩, ⟨%d2, H2⟩, ⟨%d3, H3⟩, ⟨%d4, H4⟩⟩
    have hc := covers1 (run1_B V c t h0 (outsAt1 V c (t.val - 1) (Nat.lt_of_le_of_lt (Nat.sub_le _ _) t.isLt)).2.2.1 (outsAt1 V c (t.val - 1) (Nat.lt_of_le_of_lt (Nat.sub_le _ _) t.isLt)).2.2.2) (by sl_kernel_rfl)
    iapply ((run1_B V c t h0 _ _).2.2.2.2 Set.univ _)
  all_goals
    iframe H0 H1 H2 HS0 HS1
    isplitl [H3]; · iexists _; iexact H3
    isplitl [H4]; · iexists _; iexact H4
    iintro ⟨H0, H1, H2, H3, H4, HS0, HS1⟩
    iframe H0 H1 H2 Ho HR
    isplitl [HS0 HS1]
    · isplitl [HS0]; · iapply owns_of_cover1 _ hc.2.2.1; iexact HS0
      iapply owns_of_cover1 _ hc.2.2.2; iexact HS1
    isplitl [H3]; · iapply owns_of_cover1 _ hc.1; iexact H3
    iapply owns_of_cover1 _ hc.2.1; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega)]
  exact PhiA1_close c _ _

end Region1

end Cert.KernelIdeal.Gen

end
-- ==== Proof.KI.Reg2.lean ====
import proofs.«118818_j27127013442152_1_alg».proof.Proof.KI.Launch
import proofs.«118818_j27127013442152_1_alg».proof.Proof.Gen.KernelIdeal.Skeleton
import proofs.«118818_j27127013442152_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

def out2_7 (x0 : Vec F S10000x128 .f32) (x1 : Vec F S10000x128 .f32) (x2 : Vec F S1x128 .f32) (x3 : Vec F S1x128 .f32) (x4 : Vec F S1x128 .f32) (x5 : Vec F S1x128 .f32) (x6 : Vec F S1x128 .f32) : Vec F S10000x128 .f32 :=
  View.canon [⟨r2_0, k2_pay1 (View.ld x0 r2_0) (View.ld x1 r2_0) (View.ld x2 r2_1) (View.ld x3 r2_1) (View.ld x4 r2_1) (View.ld x5 r2_1) (View.ld x6 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

-- the body only reads its inputs
theorem before2 (c : Dev nD) (t : Fin cfg2.N) (w : Fin cfg2.W) (h : w.val < 7 := by decide) : ∀ d, (dat2 V c).before w t d = (dat2 V c).after w t :=
  match w, h with
  | ⟨0, _⟩, _ | ⟨1, _⟩, _ | ⟨2, _⟩, _ | ⟨3, _⟩, _ | ⟨4, _⟩, _ | ⟨5, _⟩, _ | ⟨6, _⟩, _ => fun d => by
    refine (dat2 V c).before_in_eq_fetched _ ?_ ?_ ?_ ?_ t d <;> intros <;> rfl
  | ⟨7, _⟩, h => absurd h (by simp)

-- every input is loaded whole and every output stored whole, so each output is a function of the input blocks alone
set_option maxHeartbeats 1000000 in
theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  simp only [before2 V c t 0, before2 V c t 1, before2 V c t 2, before2 V c t 3, before2 V c t 4, before2 V c t 5, before2 V c t 6]
  dsimp only [dat2]
  sl_whnfR [defs₀, Defs.onTc]
  simp only [cc2__norm_kernel_eq_skeleton]; unfold cc2__norm_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  iexists _; isplitr
  swap; · iexact H7
  ipureintro
  rw [← hf0, ← hf1, ← hf2, ← hf3, ← hf4, ← hf5, ← hf6]
  exact View.read_writes_eq_canon _ _ _ (View.cover_of_tiled _ S10000x128.size (by rfl))

end Region2

end Cert.KernelIdeal.Gen

end
-- ==== Proof.KI.Run.lean ====
import proofs.«118818_j27127013442152_1_alg».proof.Proof.KI.Launch
import proofs.«118818_j27127013442152_1_alg».proof.Proof.KI.Reg0
import proofs.«118818_j27127013442152_1_alg».proof.Proof.KI.Reg1
import proofs.«118818_j27127013442152_1_alg».proof.Proof.KI.Reg2

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hostOps0_W : List (Ref sig .tc) := [main_v0, main_v1, main_v2, main_v3, main_v4, main_v5, main_v6]
abbrev hostOps1_W : List (Ref sig .tc) := [main_cst, main_v8, main_cst_0, main_v9, main_v10, main_v11, main_v12, main_c, main_v13, main_v14, main_c_1, main_v15, main_v16, main_v17, main_v18, main_v19, main_c_2, main_v20, main_v21, main_c_3, main_v22, main_v23, main_v24, main_v25, main_v26, main_v27, main_c_4, main_v28, main_v29, main_c_5, main_v30, main_v31, main_v32, main_v33, main_v34, main_v35, main_v36, main_v37, main_cst_6, main_v38, main_v39, main_v40, main_v41, main_v42, main_v43]
abbrev hostOps2_W : List (Ref sig .tc) := [main_cst_7, main_v45, main_v46, main_cst_8, main_v47, main_v48, main_v49, main_v50, main_cst_9, main_v51, main_v52, main_v53]

/-- A line of operations that each write one reference of `W` leaves every other reference as it was. -/
theorem keeps (ops : List (HloOp τ sig (Elt F))) {W : List (Ref sig .tc)} (V : Valuation τ sig (Elt F)) {r : Ref sig .tc} (h : r ∉ W)
    (hW : ops.Forall fun op => op.writes ⊆ (W.map (Proc.devRef (τ := τ) .tc)).toFinset := by
      simp only [List.Forall]; (repeat' apply And.intro); all_goals exact Finset.singleton_subset_iff.2 (List.mem_toFinset.2 (List.mem_map_of_mem (by decide)))) :
    StableHlo.after ops V (Proc.devRef .tc r) = V (Proc.devRef .tc r) :=
  StableHlo.after_of_writes_sub ops V hW h

/-- `withArrays` of the exit contents changes no reference that is an input window's array (`arrAt_in`) or no array at all. -/
theorem withArrays_in {cfg : Cfg sig Λ₀} (hinj : Function.Injective (Pipeline.arrRef cfg.spec)) (c : Dev nD)
    (dat : Dat τ (Elt F) Unit ℕ (UR sig nD τ) ℕ cfg c) (V : Valuation τ sig (Elt F))
    (hA : ∀ w, dat.A w = V (Proc.devRef .tc (Pipeline.arrRef cfg.spec w))) (r : Ref sig .tc)
    (h : ∀ w, Pipeline.arrRef cfg.spec w = r → (cfg.win w).isOut = false) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    exact (Pipeline.withArrays_arr _ hinj c _ _ w).trans ((dat.arrAt_in w (h w rfl) _).trans (hA w))
  · exact Pipeline.withArrays_of_ne _ c _ _ r fun w e => hr ⟨w, e⟩

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  keeps hostOps0 _ h

def W2 (c : Dev nD) : Valuation τ sig (Elt F) :=
  Pipeline.withArrays spec0 c (W1 m ρ c) fun w => (dat0 (V1 m ρ) c).arrAt w cfg0.N
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) :
    W5 m ρ c (Proc.devRef .tc r) = W4 m ρ c (Proc.devRef .tc r) :=
  keeps hostOps2 _ h

def W6 (c : Dev nD) : Valuation τ sig (Elt F) :=
  Pipeline.withArrays spec2 c (W5 m ρ c) fun w => (dat2 (V5 m ρ) c).arrAt w cfg2.N

theorem W2_main_v7_0 (c : Dev nD) : W2 m ρ c (Proc.devRef .tc main_v7_0) = (dat0 (V1 m ρ) c).arrAt 3 cfg0.N :=
  Pipeline.withArrays_arr spec0 launch0.win.arr_inj c _ _ 3
theorem W2_main_v7_1 (c : Dev nD) : W2 m ρ c (Proc.devRef .tc main_v7_1) = (dat0 (V1 m ρ) c).arrAt 4 cfg0.N :=
  Pipeline.withArrays_arr spec0 launch0.win.arr_inj c _ _ 4
theorem W4_main_v44_0 (c : Dev nD) : W4 m ρ c (Proc.devRef .tc main_v44_0) = (dat1 (V3 m ρ) c).arrAt 3 cfg1.N := W4_arr m ρ c 3
theorem W4_main_v44_1 (c : Dev nD) : W4 m ρ c (Proc.devRef .tc main_v44_1) = (dat1 (V3 m ρ) c).arrAt 4 cfg1.N := W4_arr m ρ c 4
theorem W6_main_v54 (c : Dev nD) : W6 m ρ c (Proc.devRef .tc main_v54) = (dat2 (V5 m ρ) c).arrAt 7 cfg2.N :=
  Pipeline.withArrays_arr spec2 launch2.win.arr_inj c _ _ 7

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The contents after region `p` entered at `Wi`: its arrays at `arrAt … N`, every other reference as entered. -/
abbrev Wx (p : Fin 3) (Wi : Dev nD → Valuation τ sig (Elt F)) (c : Dev nD) : Valuation τ sig (Elt F) :=
  Pipeline.withArrays (cfgs p).spec c (Wi c) fun w => (pdats m ρ p c).arrAt w (cfgs p).N

theorem plain (p : Fin 3) (c : Dev nD) : (∀ t, (pdats m ρ p c).owed t = 0) ∧ (∀ x, x ∈ (pdats m ρ p c).recorded 0) ∧ ∀ w, (pdats m ρ p c).q w = fullShare := by
  fin_cases p <;> exact ⟨fun _ => rfl, fun _ => trivial, fun _ => rfl⟩

set_option backward.isDefEq.respectTransparency.types false in
/-- Region `p` as a segment from the contents `Wi` to `Wx p Wi`: its arrays are split out of what is held and put back as the region leaves them. -/
def reg (p : Fin 3) (lf : Pipeline.LaunchFacts (nD := nD) (τ := τ) cfgs p) (Wi : Dev nD → Valuation τ sig (Elt F))
    (hb : ∀ c, BodyObligation (pdats m ρ p c) (defs₀ (F := F)) Variants.none () Set.univ)
    (hA : ∀ c w, (pdats m ρ p c).A w = Wi c (Pipeline.arrRef (cfgs p).spec w))
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (plain m ρ p c).1
  pre c := iprop(StableHlo.held (c : Thread nD τ) (Pipeline.ucRefs τ sig) (Wi c) ∗ R c)
  post c := iprop(StableHlo.held (c : Thread nD τ) (Pipeline.ucRefs τ sig) (Wx m ρ p Wi c) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (plain m ρ p c).2.2) (fun b => Wi c b) (hA c)
    rw [Pipeline.unscopedBufs_held] at hsplit
    iintro ⟨⟨Hub, Hp, HO⟩, -, -⟩
    icases hsplit $$ Hub with ⟨Ha, Hrest⟩
    imodintro
    iframe Ha
    isplitr; · unfold Pipeline.prefHeld; rw [show (Finset.univ : Finset (Fin 0)) = ∅ from rfl, BI.bigSep_empty]; iempintro
    isplitl [HO]
    · unfold Pipeline.Dat.owesAt Pipeline.owesWithin
      rw [(plain m ρ p c).1]
      icases HO with ⟨%W, HO⟩; iexists W; isplitr; · ipureintro; exact fun x _ => Or.inl ((plain m ρ p c).2.1 x)
      iexact HO
    iframe
  hin c := by
    refine BIBase.Entails.trans ?_ (hin c)
    unfold Pipeline.ΦA
    iintro ⟨Hp, -, Hr⟩
    iframe
  hout c := by
    rw [Pipeline.ownSems0_none]
    refine BIBase.Entails.trans (hout c) ?_
    unfold Pipeline.ΦA
    iintro ⟨Hr, Hp⟩
    iframe; iempintro
  hexit c := by
    have hjoin := Pipeline.unscopedBufs_of_arrays (p := p) (pcfgs (F := F)) adm lf.win lf.arr_whole c (pdats m ρ) ((pdats m ρ p c).share_full (plain m ρ p c).2.2)
      (fun b => Wi c b) (fun b => Wx m ρ p Wi c b) ((pdats m ρ p c).arrAt · (cfgs p).N)
      (fun w => (Pipeline.withArrays_arr (cfgs p).spec lf.win.arr_inj c (Wi c) (fun w => (pdats m ρ p c).arrAt w (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(plain m ρ p c).1]
    icases HO with ⟨%W, -, HO⟩; iexists W; iexact HO

abbrev segs : List (Pipeline.Seg (pcfgs (F := F)) adm (pdats m ρ) () defs₀ 𝒱₀ L lv) :=
  [ .host (hseg hostOps0 hostOps0_sub (W0 m ρ)),
    .region (reg m ρ 0 launch0 (W1 m ρ) (body_obligation0 _) (A_eq0 _) (fun _ => .rfl) fun _ => .rfl),
    .host (hseg hostOps1 hostOps1_sub (W2 m ρ)),
    .region (reg m ρ 1 launch1 (W3 m ρ) (body_obligation1 _) (A_eq1 _) (hin1 _) (hout1 _)),
    .host (hseg hostOps2 hostOps2_sub (W4 m ρ)),
    .region (reg m ρ 2 launch2 (W5 m ρ) (body_obligation2 _) (A_eq2 _) (fun _ => .rfl) fun _ => .rfl) ]

theorem main_run (c : Dev nD) : main (F := F) c = Pipeline.Seg.run (segs m ρ) := by
  rw [main_chain c, Pipeline.Seg.run_eq_chain]
  rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- In a memory that agrees with `W6`, a reference no host stretch writes and no output window has as its array reads as launched. -/
theorem arg_kept {s : MemSt nD τ sig (Elt F)} {c : Dev nD}
    (hs : ∀ b ∈ Pipeline.ucRefs τ sig, s.mem ((c : Thread nD τ).1, b) = W6 m ρ c b) (r : Ref sig .tc)
    (h : (¬ (Proc.devRef .tc r : DevRef τ sig).isScoped ∧ r ∉ hostOps0_W ∧ r ∉ hostOps1_W ∧ r ∉ hostOps2_W)
      ∧ (∀ w, Pipeline.arrRef spec0 w = r → (cfg0.win w).isOut = false)
      ∧ (∀ w, Pipeline.arrRef spec1 w = r → (cfg1.win w).isOut = false)
      ∧ ∀ w, Pipeline.arrRef spec2 w = r → (cfg2.win w).isOut = false) :
    s.mem ((c.tc : Thread nD τ).loc r) = m ((c.tc : Thread nD τ).loc r) :=
  (hs _ (mem_uc r h.1.1)).trans <|
  (withArrays_in launch2.win.arr_inj c (dat2 (V5 m ρ) c) (W5 m ρ c) (A_eq2 _ c) r h.2.2.2).trans <|
  (W5_of m ρ c r h.1.2.2.2).trans <|
  (withArrays_in launch1.win.arr_inj c (dat1 (V3 m ρ) c) (W3 m ρ c) (A_eq1 _ c) r h.2.2.1).trans <|
  (keeps hostOps1 _ h.1.2.2.1).trans <|
  (withArrays_in launch0.win.arr_inj c (dat0 (V1 m ρ) c) (W1 m ρ c) (A_eq0 _ c) r h.2.1).trans (W1_of m ρ c r h.1.2.1)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun r h c =>
    ⟨arg_kept m ρ (h c) main_arg0 (by decide),
     arg_kept m ρ (h c) main_arg1 (by decide),
     arg_kept m ρ (h c) main_arg2 (by decide),
     arg_kept m ρ (h c) main_arg3 (by decide),
     arg_kept m ρ (h c) main_arg4 (by decide),
     arg_kept m ρ (h c) main_arg5 (by decide),
     arg_kept m ρ (h c) main_arg6 (by decide)⟩

end Cert.KernelIdeal.Gen

end
-- ==== Proof.KI.Val2.lean ====
import proofs.«118818_j27127013442152_1_alg».proof.Proof.KI.Reg2
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

theorem k2_pay1_apply (x0 x1 : Vec Ideal S10000x128 .f32) (x2 x3 x4 x5 x6 : Vec Ideal S1x128 .f32) (p : Fin 10000) (q : Fin 128) :
    k2_pay1 x0 x1 x2 x3 x4 x5 x6 (ix2 p q)
      = max (((((x0 (ix2 p q) + x1 (ix2 p q)) + x2 (ix2 0 q)) - x3 (ix2 0 q)) * x4 (ix2 0 q)) * x5 (ix2 0 q) + x6 (ix2 0 q))
          (Ideal.ofBits .f32 0x00000000#32) := by
  unfold k2_pay1
  simp only [shapeCast_self]
  rw [maximumf_apply, addf_apply, mulf_apply, mulf_apply, subf_apply, addf_apply, addf_apply, broadcast_apply]
  rw [broadcastTo_1b_ab_apply, broadcastTo_1b_ab_apply, broadcastTo_1b_ab_apply, broadcastTo_1b_ab_apply, broadcastTo_1b_ab_apply]
  rfl

def norm2 (a s : S100000x128.Idx → EReal) (b mu istd g be : S1x128.Idx → EReal) (p : Fin 100000) (q : Fin 128) : EReal :=
  max (((((a (ix2 p q) + s (ix2 p q)) + b (ix2 0 q)) - mu (ix2 0 q)) * istd (ix2 0 q)) * g (ix2 0 q) + be (ix2 0 q))
    (Ideal.ofBits .f32 0x00000000#32)

variable (V : (c : Dev nD) → (b : Ref sig .tc) → Buf (Elt Ideal) ((c : Thread nD τ).loc b))

def G27 (c : Dev nD) : S100000x128.Idx → EReal := fun i => norm2 (V c main_v40) (V c main_v7_1) (V c main_v41) (V c main_v46) (V c main_v53) (V c main_v42) (V c main_v43) (i 0) (i 1)

theorem zero_offsets : (![0, 0] : Fin 2 → Nat) = fun _ => 0 := funext fun a => by fin_cases a <;> rfl

theorem index_facts2 : ∀ t : Fin cfg2.N, win2_0.index t (0 : Fin 2) = t.val ∧ win2_0.index t (1 : Fin 2) = 0
    ∧ (∀ a : Fin 2, win2_2.index t a = 0) ∧ (∀ a : Fin 2, win2_3.index t a = 0) ∧ (∀ a : Fin 2, win2_4.index t a = 0)
    ∧ (∀ a : Fin 2, win2_5.index t a = 0) ∧ ∀ a : Fin 2, win2_6.index t a = 0 :=
  (by decide +kernel : ∀ t : Fin grid2.N, _)

theorem emb2 (t : Fin cfg2.N) (p : Fin 10000) (q : Fin 128) (r : Fin 100000) (hr : r.val = t.val * 10000 + p.val) :
    ((cfg2.win 0).blk t).view.emb (ix2 p q) = (ix2 r q : S100000x128.Idx) := by
  obtain ⟨e00, e01, -⟩ := index_facts2 t
  exact Shape.idx_ext₂ (by show win2_0.index t (0 : Fin 2) * 10000 + 1 * p.val = r.val; omega)
    (by show win2_0.index t (1 : Fin 2) * 128 + 1 * q.val = q.val; omega)

theorem flushed2_7_eq (c : Dev nD) (t : Fin cfg2.N) :
    (dat2 V c).flushed 7 t = ((cfg2.win 7).blk t).view.read (Elt Ideal) (G27 V c) := by
  show (cfg2.win 7).cut (grid2.coords t) ((dat2 V c).after 7 t) = _
  rw [after2_7]
  unfold out2_7
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 (n0 := 10000) (n1 := 128) j⟩
  obtain ⟨-, -, h2, h3, h4, h5, h6⟩ := index_facts2 t
  have hN : grid2.N = 10 := N_2
  have ht : t.val < grid2.N := t.isLt
  have hr : t.val * 10000 + p.val < 100000 := by have := p.isLt; omega
  refine (k2_pay1_apply _ _ _ _ _ _ _ p q).trans ?_
  rw [show iblk2 V c 0 t (ix2 p q) = V c main_v40 (ix2 ⟨_, hr⟩ q) from congrArg (V c main_v40) (emb2 t p q _ rfl),
    show iblk2 V c 1 t (ix2 p q) = V c main_v7_1 (ix2 ⟨_, hr⟩ q) from congrArg (V c main_v7_1) (emb2 t p q _ rfl),
    show iblk2 V c 2 t (ix2 0 q) = V c main_v41 (ix2 0 q) from congrArg (V c main_v41) (funext fun a => Fin.ext (win2_2.rect_emb_val_of_index_zero t a (h2 a) _)),
    show iblk2 V c 3 t (ix2 0 q) = V c main_v46 (ix2 0 q) from congrArg (V c main_v46) (funext fun a => Fin.ext (win2_3.rect_emb_val_of_index_zero t a (h3 a) _)),
    show iblk2 V c 4 t (ix2 0 q) = V c main_v53 (ix2 0 q) from congrArg (V c main_v53) (funext fun a => Fin.ext (win2_4.rect_emb_val_of_index_zero t a (h4 a) _)),
    show iblk2 V c 5 t (ix2 0 q) = V c main_v42 (ix2 0 q) from congrArg (V c main_v42) (funext fun a => Fin.ext (win2_5.rect_emb_val_of_index_zero t a (h5 a) _)),
    show iblk2 V c 6 t (ix2 0 q) = V c main_v43 (ix2 0 q) from congrArg (V c main_v43) (funext fun a => Fin.ext (win2_6.rect_emb_val_of_index_zero t a (h6 a) _))]
  show _ = G27 V c (((cfg2.win 7).blk t).view.emb (ix2 p q))
  rw [show ((cfg2.win 7).blk t).view.emb (ix2 p q) = (ix2 ⟨_, hr⟩ q : S100000x128.Idx) from emb2 t p q _ rfl]
  rfl

-- row r lies in the block of point r / 10000
theorem cover7 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 := ⟨⟨_, show (i 0).val / 10000 < grid2.N by omega⟩, rfl⟩
  obtain ⟨e00, e01, -⟩ := index_facts2 t
  refine ⟨t, flush2_7 t, ?_⟩
  show i ∈ ((View.whole main_v54).slice (win2_0.rect t)).set
  rw [View.set_slice_whole, Rect.mem_set_unit]
  intro a
  match a with
  | ⟨0, _⟩ => show win2_0.index t (0 : Fin 2) * 10000 ≤ (i 0).val ∧ (i 0).val < win2_0.index t (0 : Fin 2) * 10000 + 10000; omega
  | ⟨1, _⟩ => show win2_0.index t (1 : Fin 2) * 128 ≤ (i 1).val ∧ (i 1).val < win2_0.index t (1 : Fin 2) * 128 + 128; omega

theorem arr2_7_eq (c : Dev nD) : (dat2 V c).arrAt 7 cfg2.N = G27 V c :=
  (dat2 V c).arrAt_eq_of_cover 7 _ (fun t _ => flushed2_7_eq V c t) cover7

theorem arr2_7_apply (c : Dev nD) (p : Fin 100000) (q : Fin 128) :
    (dat2 V c).arrAt 7 cfg2.N (ix2 p q) = norm2 (V c main_v40) (V c main_v7_1) (V c main_v41) (V c main_v46) (V c main_v53) (V c main_v42) (V c main_v43) p q :=
  congrFun (arr2_7_eq V c) (ix2 p q)

end Cert.KernelIdeal.Val

end
-- ==== Proof.Chain.lean ====
import proofs.«118818_j27127013442152_1_alg».proof.KernelIdeal
import proofs.«118818_j27127013442152_1_alg».proof.Proof.Gen.KernelIdeal

noncomputable section

namespace Cert.Chain

open Idealize.ShloMosaic Cert.KernelIdeal Cert.KernelIdeal.Facts₀

attribute [local instance] Cert.KernelIdeal.Gen.facts

variable {F : FTy → Type} [FloatOps F]

def rowV (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def colV (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

def wrapCol (x : IVec S1700000 32) : IVec S1700000x1 32 :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

def degV (col : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

def normV (row col : IVec S1700000 32) : FVec F S1700000 .f32 :=
  mulf (Host.gather gather_S100000_S1700000x1_S1700000_n_0_n_n_0_1_1 (Host.rsqrt (degV (F := F) col)) (wrapCol row))
    (Host.gather gather_S100000_S1700000x1_S1700000_n_0_n_n_0_1_1 (Host.rsqrt (degV (F := F) col)) (wrapCol col))

def msgV (xt : FVec F S100000x128 .f32) (row col : IVec S1700000 32) : FVec F S1700000x128 .f32 :=
  mulf (Host.gather gather_S100000x128_S1700000x1_S1700000x128_1_0_n_n_0_1_1128 xt (wrapCol row))
    (broadcastInDim S1700000x128 ![0, 1] bcast_S1700000x1_S1700000x128_0_1
      (broadcastInDim S1700000x1 ![0] bcast_S1700000_S1700000x1_0 (normV (F := F) row col)))

def aggC (xt : FVec F S100000x128 .f32) (row col : IVec S1700000 32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (msgV xt row col)

def aggF (xt : FVec F S100000x128 .f32) (ei : IVec S2x1600000 32) : FVec F S100000x128 .f32 :=
  aggC xt (rowV ei) (colV ei)

end Cert.Chain

end
-- ==== Proof.KI.HostReads.lean ====
import proofs.«118818_j27127013442152_1_alg».proof.Proof.KI.Launch
import proofs.«118818_j27127013442152_1_alg».proof.Proof.Chain
import Idealize.ShloMosaic.Lib.StableHlo.Run

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.Facts₀

attribute [local instance] Cert.KernelIdeal.Gen.facts

variable {F : FTy → Type} [FloatOps F]

theorem after0_v5 (W : Valuation τ sig (Elt F)) :
    (StableHlo.after hostOps0 W (Proc.devRef .tc main_v5) : IVec S1700000 32)
      = Cert.Chain.rowV (W (Proc.devRef .tc main_arg1)) := by
  after_results; try rfl

theorem after0_v6 (W : Valuation τ sig (Elt F)) :
    (StableHlo.after hostOps0 W (Proc.devRef .tc main_v6) : IVec S1700000 32)
      = Cert.Chain.colV (W (Proc.devRef .tc main_arg1)) := by
  after_results; try rfl

set_option maxHeartbeats 4000000 in
theorem after1_v40 (W : Valuation τ sig (Elt F)) :
    (StableHlo.after hostOps1 W (Proc.devRef .tc main_v40) : FVec F S100000x128 .f32)
      = Cert.Chain.aggC (W (Proc.devRef .tc main_v7_0)) (W (Proc.devRef .tc main_v5)) (W (Proc.devRef .tc main_v6)) := by
  after_results_simp; try rfl

set_option maxHeartbeats 4000000 in
theorem after1_v41 (W : Valuation τ sig (Elt F)) :
    (StableHlo.after hostOps1 W (Proc.devRef .tc main_v41) : FVec F S1x128 .f32)
      = shapeCast S1x128 (W (Proc.devRef .tc main_arg3) : FVec F S128 .f32) Facts₀.shapeCasts_S128_S1x128 := by
  after_results_simp; try rfl

set_option maxHeartbeats 4000000 in
theorem after1_v42 (W : Valuation τ sig (Elt F)) :
    (StableHlo.after hostOps1 W (Proc.devRef .tc main_v42) : FVec F S1x128 .f32)
      = shapeCast S1x128 (W (Proc.devRef .tc main_arg5) : FVec F S128 .f32) Facts₀.shapeCasts_S128_S1x128 := by
  after_results_simp; try rfl

set_option maxHeartbeats 4000000 in
theorem after1_v43 (W : Valuation τ sig (Elt F)) :
    (StableHlo.after hostOps1 W (Proc.devRef .tc main_v43) : FVec F S1x128 .f32)
      = shapeCast S1x128 (W (Proc.devRef .tc main_arg6) : FVec F S128 .f32) Facts₀.shapeCasts_S128_S1x128 := by
  after_results_simp; try rfl

set_option maxHeartbeats 4000000 in
theorem after1_v7_1 (W : Valuation τ sig (Elt F)) :
    StableHlo.after hostOps1 W (Proc.devRef .tc main_v7_1) = W (Proc.devRef .tc main_v7_1) := by
  after_results_simp

theorem after2_v46 (W : Valuation τ sig (Elt F)) :
    (StableHlo.after hostOps2 W (Proc.devRef .tc main_v46) : FVec F S1x128 .f32)
      = Host.divf (W (Proc.devRef .tc main_v44_0) : FVec F S1x128 .f32)
          (broadcastInDim S1x128 ![] Facts₀.bcast_S_S1x128 (constant (F := F) S_ .f32 0x47C35000#32)) := by
  after_results; try rfl

theorem after2_v53 (W : Valuation τ sig (Elt F)) :
    (StableHlo.after hostOps2 W (Proc.devRef .tc main_v53) : FVec F S1x128 .f32)
      = Host.rsqrt (addf (subf (Host.divf (W (Proc.devRef .tc main_v44_1) : FVec F S1x128 .f32)
            (broadcastInDim S1x128 ![] Facts₀.bcast_S_S1x128 (constant (F := F) S_ .f32 0x47C35000#32)))
          (mulf (Host.divf (W (Proc.devRef .tc main_v44_0) : FVec F S1x128 .f32)
              (broadcastInDim S1x128 ![] Facts₀.bcast_S_S1x128 (constant (F := F) S_ .f32 0x47C35000#32)))
            (Host.divf (W (Proc.devRef .tc main_v44_0) : FVec F S1x128 .f32)
              (broadcastInDim S1x128 ![] Facts₀.bcast_S_S1x128 (constant (F := F) S_ .f32 0x47C35000#32)))))
        (broadcastInDim S1x128 ![] Facts₀.bcast_S_S1x128 (constant (F := F) S_ .f32 0x3727C5AC#32))) := by
  after_results; try rfl

end Cert.KernelIdeal.HostReads

end
-- ==== Proof.Spec.lean ====
import Idealize.ShloMosaic.PureOps.Ideal

noncomputable section

namespace Cert.Spec

open Idealize.ShloMosaic

def IsReal (x : EReal) : Prop := ∃ r : ℝ, x = (r : EReal)

abbrev n5 : EReal := Ideal.ofBits .f32 0x47C35000#32
abbrev eps : EReal := Ideal.ofBits .f32 0x3727C5AC#32
abbrev z0 : EReal := Ideal.ofBits .f32 0x00000000#32

def outK (agg sk : Fin 100000 → Fin 128 → EReal) (b : Fin 128 → EReal) (p : Fin 100000) (q : Fin 128) : EReal :=
  (agg p q + sk p q) + b q

def outR (agg sk : Fin 100000 → Fin 128 → EReal) (b : Fin 128 → EReal) (p : Fin 100000) (q : Fin 128) : EReal :=
  (agg p q + b q) + sk p q

def muK (o : Fin 100000 → Fin 128 → EReal) (q : Fin 128) : EReal := Ideal.div (∑ p : Fin 100000, o p q) n5
def isK (o : Fin 100000 → Fin 128 → EReal) (q : Fin 128) : EReal :=
  Ideal.rsqrt ((Ideal.div (∑ p : Fin 100000, o p q * o p q) n5 - muK o q * muK o q) + eps)
def resK (o : Fin 100000 → Fin 128 → EReal) (g be : Fin 128 → EReal) (p : Fin 100000) (q : Fin 128) : EReal :=
  max ((((o p q - muK o q) * isK o q) * g q) + be q) z0

def muR (o : Fin 100000 → Fin 128 → EReal) (q : Fin 128) : EReal := Ideal.div (z0 + ∑ p : Fin 100000, o p q) n5
def varR (o : Fin 100000 → Fin 128 → EReal) (q : Fin 128) : EReal :=
  Ideal.div (z0 + ∑ p : Fin 100000, (o p q - muR o q) * (o p q - muR o q)) (n5 - (((0#32 : BitVec 32).toInt : ℝ) : EReal))
def resR (o : Fin 100000 → Fin 128 → EReal) (g be : Fin 128 → EReal) (p : Fin 100000) (q : Fin 128) : EReal :=
  max ((((o p q - muR o q) * Ideal.rsqrt (varR o q + eps)) * g q) + be q) z0

theorem outK_eq_outR (agg sk : Fin 100000 → Fin 128 → EReal) (b : Fin 128 → EReal) : outK agg sk b = outR agg sk b :=
  funext fun _ => funext fun _ => add_right_comm _ _ _

theorem z0_eq : z0 = 0 := by
  simp [Ideal.ofBits, Ideal.ieee]

theorem n5_eq : n5 = ((100000 : ℝ) : EReal) := by
  simp [Ideal.ofBits, Ideal.ieee, -EReal.coe_mul]; norm_num

theorem isReal_add {x y : EReal} : IsReal x → IsReal y → IsReal (x + y) := by
  rintro ⟨a, rfl⟩ ⟨b, rfl⟩
  exact ⟨a + b, (EReal.coe_add a b).symm⟩

theorem isReal_mul {x y : EReal} : IsReal x → IsReal y → IsReal (x * y) := by
  rintro ⟨a, rfl⟩ ⟨b, rfl⟩
  exact ⟨a * b, (EReal.coe_mul a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) : (∀ i ∈ s, IsReal (f i)) → IsReal (∑ i ∈ s, f i) :=
  Finset.sum_induction f IsReal (fun _ _ => isReal_add) ⟨0, rfl⟩
-- Expanding the square, ∑ (r - μ)² = ∑ r² - 2 μ S + n μ² with S = n μ.
theorem var_identity {ι : Type*} [Fintype ι] (r : ι → ℝ) (n : ℝ) (hn : n ≠ 0) (hc : (Fintype.card ι : ℝ) = n) :
    (∑ p, (r p - (∑ p, r p) * (1 / n)) * (r p - (∑ p, r p) * (1 / n))) * (1 / n)
      = (∑ p, r p * r p) * (1 / n) - ((∑ p, r p) * (1 / n)) * ((∑ p, r p) * (1 / n)) := by
  have h : ∀ c : ℝ, ∑ p, (r p - c) * (r p - c) = ∑ p, r p * r p - 2 * c * ∑ p, r p + n * (c * c) := fun c => by
    simp only [sub_mul, mul_sub, Finset.sum_sub_distrib, ← Finset.mul_sum, ← Finset.sum_mul, Finset.sum_const,
      Finset.card_univ, nsmul_eq_mul, hc]
    ring
  rw [h]
  field_simp
  ring

theorem muR_eq_muK (o : Fin 100000 → Fin 128 → EReal) (q : Fin 128) : muR o q = muK o q := by
  rw [muR, z0_eq, zero_add, muK]

theorem varR_eq (r : Fin 100000 → Fin 128 → ℝ) (q : Fin 128) :
    varR (fun p q => (r p q : EReal)) q
      = Ideal.div (∑ p : Fin 100000, (r p q : EReal) * (r p q : EReal)) n5
        - muK (fun p q => (r p q : EReal)) q * muK (fun p q => (r p q : EReal)) q := by
  have hn : (100000 : ℝ) ≠ 0 := by norm_num
  have hc : ((Fintype.card (Fin 100000) : ℕ) : ℝ) = 100000 := by rw [Fintype.card_fin]; norm_num
  unfold varR
  rw [muR_eq_muK]
  unfold muK
  rw [z0_eq, zero_add, n5_eq, BitVec.toInt_zero, Int.cast_zero, EReal.coe_zero, sub_zero, Ideal.div_coe hn,
    Ideal.div_coe hn, Ideal.div_coe hn]
  simp only [← coe_sum, ← EReal.coe_mul, ← EReal.coe_sub]
  exact congrArg _ (var_identity (fun p => r p q) 100000 hn hc)

-- On real row values the mean squared deviation is the mean square minus the squared mean.
theorem res_eq (o : Fin 100000 → Fin 128 → EReal) (g be : Fin 128 → EReal) (ho : ∀ p q, IsReal (o p q)) :
    resK o g be = resR o g be := by
  choose r hr using ho
  obtain rfl : o = fun p q => (r p q : EReal) := by funext p q; exact hr p q
  funext p q
  unfold resK resR isK
  rw [muR_eq_muK, varR_eq]

end Cert.Spec

end
-- ==== Proof.KI.ValueGlue.lean ====
import proofs.«118818_j27127013442152_1_alg».proof.KernelIdeal
import proofs.«118818_j27127013442152_1_alg».proof.Proof.Gen.KernelIdeal
import proofs.«118818_j27127013442152_1_alg».proof.Proof.Spec
import Idealize.ShloMosaic.Lib.ValueIdx
import Idealize.ShloMosaic.Lib.Pipeline.Value

noncomputable section

namespace Cert.KernelIdeal.Val

open Idealize.ShloMosaic Idealize.ShloMosaic.ValueIdx Cert.KernelIdeal

theorem mean_apply (S : FVec Ideal S1x128 .f32) (q : Fin 128) :
    Host.divf (F := Ideal) S (broadcastInDim S1x128 ![] Facts₀.bcast_S_S1x128 (constant (F := Ideal) S_ .f32 0x47C35000#32)) (ix2 0 q)
      = Ideal.div (S (ix2 0 q)) Cert.Spec.n5 := by
  rfl

theorem istd_apply (S SS : FVec Ideal S1x128 .f32) (q : Fin 128) :
    Host.rsqrt (F := Ideal) (addf (subf (Host.divf (F := Ideal) SS
            (broadcastInDim S1x128 ![] Facts₀.bcast_S_S1x128 (constant (F := Ideal) S_ .f32 0x47C35000#32)))
          (mulf (Host.divf (F := Ideal) S
              (broadcastInDim S1x128 ![] Facts₀.bcast_S_S1x128 (constant (F := Ideal) S_ .f32 0x47C35000#32)))
            (Host.divf (F := Ideal) S
              (broadcastInDim S1x128 ![] Facts₀.bcast_S_S1x128 (constant (F := Ideal) S_ .f32 0x47C35000#32)))))
        (broadcastInDim S1x128 ![] Facts₀.bcast_S_S1x128 (constant (F := Ideal) S_ .f32 0x3727C5AC#32))) (ix2 0 q)
      = Ideal.rsqrt ((Ideal.div (SS (ix2 0 q)) Cert.Spec.n5
          - Ideal.div (S (ix2 0 q)) Cert.Spec.n5 * Ideal.div (S (ix2 0 q)) Cert.Spec.n5) + Cert.Spec.eps) := by
  rfl

theorem row_apply (x : FVec Ideal S128 .f32) (q : Fin 128) :
    shapeCast S1x128 x Facts₀.shapeCasts_S128_S1x128 (ix2 0 q) = x (ix1 q) :=
  shapeCast_apply _ Facts₀.shapeCasts_S128_S1x128 (ix2 0 q) (ix1 q) (by
    rw [Shape.rowMajor_val_one, Shape.rowMajor_val_two]; show q.val = 0 * 128 + q.val; omega)

end Cert.KernelIdeal.Val

end
-- ==== Proof.KI.Val0.lean ====
import proofs.«118818_j27127013442152_1_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem contr_rank0 : dot_S10000x64_S64x128_S10000x128_1_0_0_1_n_n.contr.rank = 1 := rfl
theorem contr_size0 : dot_S10000x64_S64x128_S10000x128_1_0_0_1_n_n.contr.size ⟨0, by rw [contr_rank0]; exact Nat.one_pos⟩ = 64 := rfl

theorem lhsIdx_dot0 (r : Fin 10000) (q : Fin 128) (k : Fin 64) :
    dot_S10000x64_S64x128_S10000x128_1_0_0_1_n_n.lhsIdx (ix2 r q) ((contrEquiv1 _ 64 contr_rank0 contr_size0).symm k) = ix2 r k := by
  funext a; apply Fin.ext
  match a with
  | ⟨0, _⟩ => rfl
  | ⟨1, _⟩ => exact (DotDims.lhsIdx_val_of_single _ (cl := 1) rfl _ _).trans (contrEquiv1_symm_val _ 64 contr_rank0 contr_size0 k)

theorem rhsIdx_dot0 (r : Fin 10000) (q : Fin 128) (k : Fin 64) :
    dot_S10000x64_S64x128_S10000x128_1_0_0_1_n_n.rhsIdx (ix2 r q) ((contrEquiv1 _ 64 contr_rank0 contr_size0).symm k) = ix2 k q := by
  funext a; apply Fin.ext
  match a with
  | ⟨0, _⟩ => exact (DotDims.rhsIdx_val_of_single _ (cr := 0) rfl _ _).trans (contrEquiv1_symm_val _ 64 contr_rank0 contr_size0 k)
  | ⟨1, _⟩ => rfl

-- the contraction index has one coordinate k < 64, and the operands are read at (r, k) and (k, q)
theorem k0_pay2_apply (x0 : Vec Ideal S10000x64 .f32) (x1 : Vec Ideal S64x128 .f32) (r : Fin 10000) (q : Fin 128) :
    k0_pay2 x0 x1 (ix2 r q) = ∑ k : Fin 64, x0 (ix2 r k) * x1 (ix2 k q) := by
  unfold k0_pay2 k0_pay1
  refine (Ideal.matmul_constant_zero_apply _ none _ _ (ix2 r q)).trans ?_
  rw [← Equiv.sum_comp (contrEquiv1 _ 64 contr_rank0 contr_size0).symm]
  refine Finset.sum_congr rfl fun k _ => ?_
  rw [truncf_apply, truncf_apply, lhsIdx_dot0 r q k, rhsIdx_dot0 r q k]

variable (V : (c : Dev nD) → (b : Ref sig .tc) → Buf (Elt Ideal) ((c : Thread nD τ).loc b))

theorem hz0 : (![0, 0] : Fin 2 → Nat) = fun _ => 0 := funext fun a => by fin_cases a <;> rfl

def proj0 (a0 : S100000x64.Idx → EReal) (a1 : S64x128.Idx → EReal) : S100000x128.Idx → EReal :=
  fun i => ∑ k : Fin 64, a0 (ix2 (n0 := 100000) (i 0) k) * a1 (ix2 (n1 := 128) k (i 1))

theorem proj0_apply (a0 : S100000x64.Idx → EReal) (a1 : S64x128.Idx → EReal) (p : Fin 100000) (q : Fin 128) :
    proj0 a0 a1 (ix2 p q) = ∑ k : Fin 64, a0 (ix2 p k) * a1 (ix2 k q) := rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem xblk (c : Dev nD) (t : Fin cfg0.N) (r : Fin 10000) (k : Fin 64) (p : Fin 100000) (hp : p.val = t.val * 10000 + r.val) :
    iblk0 V c 0 t (ix2 r k) = V c main_arg0 (ix2 p k) := by
  obtain ⟨e00, e01, -⟩ := idx_facts0 t
  exact congrArg (V c main_arg0) (Shape.idx_ext₂ (by show win0_0.index t (0 : Fin 2) * 10000 + 1 * r.val = p.val; omega)
    (by show win0_0.index t (1 : Fin 2) * 64 + 1 * k.val = k.val; omega))

-- block t of x is rows 10000 t … 10000 t + 9999, so block t of x times a whole weight array is block t of the product
theorem prod_blk (c : Dev nD) (t : Fin cfg0.N) (x1 : Vec Ideal S64x128 .f32) (A : S64x128.Idx → EReal)
    (h1 : ∀ k q, x1 (ix2 k q) = A (ix2 k q)) (r : Fin 10000) (q : Fin 128) (i : S100000x128.Idx)
    (hi0 : (i 0).val = t.val * 10000 + r.val) (hi1 : (i 1).val = q.val) :
    k0_pay2 (iblk0 V c 0 t) x1 (ix2 r q) = proj0 (V c main_arg0) A i := by
  obtain ⟨p, hp⟩ : ∃ p : Fin 100000, p.val = (i 0).val := ⟨⟨_, (i 0).isLt⟩, rfl⟩
  rw [show i = ix2 p q from Shape.idx_ext₂ hp.symm hi1, k0_pay2_apply, proj0_apply]
  exact Finset.sum_congr rfl fun k _ => by rw [h1, xblk V c t r k p (hp.trans hi0)]

theorem wblk1 (c : Dev nD) (t : Fin cfg0.N) (k : Fin 64) (q : Fin 128) : iblk0 V c 1 t (ix2 k q) = V c main_arg2 (ix2 k q) := by
  obtain ⟨-, -, e0, e1, -⟩ := idx_facts0 t
  exact congrArg (V c main_arg2) (Shape.idx_ext₂ (win0_1.rect_emb_val_of_index_zero t 0 e0 _) (win0_1.rect_emb_val_of_index_zero t 1 e1 _))

theorem wblk2 (c : Dev nD) (t : Fin cfg0.N) (k : Fin 64) (q : Fin 128) : iblk0 V c 2 t (ix2 k q) = V c main_arg4 (ix2 k q) := by
  obtain ⟨-, -, -, -, e0, e1, -⟩ := idx_facts0 t
  exact congrArg (V c main_arg4) (Shape.idx_ext₂ (win0_2.rect_emb_val_of_index_zero t 0 e0 _) (win0_2.rect_emb_val_of_index_zero t 1 e1 _))

theorem flushed0_3_eq (c : Dev nD) (t : Fin cfg0.N) :
    (dat0 (F := Ideal) V c).flushed 3 t = ((cfg0.win 3).blk t).view.read (Elt Ideal) (proj0 (V c main_arg0) (V c main_arg2)) := by
  show (cfg0.win 3).cut (grid0.coords t) ((dat0 V c).after 3 t) = _
  rw [after0_3]
  unfold out0_3
  rw [View.canon_unit_zero hz0]
  simp only [View.ld_unit_zero (S := S10000x64) hz0, View.ld_unit_zero (S := S64x128) hz0]
  obtain ⟨-, -, -, -, -, -, e30, e31, -⟩ := idx_facts0 t
  funext j
  obtain ⟨r, q, rfl⟩ : ∃ (r : Fin 10000) (q : Fin 128), j = ix2 r q := ⟨j 0, j 1, eq_ix2 j⟩
  show k0_pay2 (iblk0 V c 0 t) (iblk0 V c 1 t) (ix2 r q) = proj0 (V c main_arg0) (V c main_arg2) (((cfg0.win 3).blk t).view.emb (ix2 r q))
  exact prod_blk V c t _ _ (wblk1 V c t) r q _ (by show win0_3.index t (0 : Fin 2) * 10000 + 1 * r.val = _; omega)
    (by show win0_3.index t (1 : Fin 2) * 128 + 1 * q.val = q.val; omega)

theorem flushed0_4_eq (c : Dev nD) (t : Fin cfg0.N) :
    (dat0 (F := Ideal) V c).flushed 4 t = ((cfg0.win 4).blk t).view.read (Elt Ideal) (proj0 (V c main_arg0) (V c main_arg4)) := by
  show (cfg0.win 4).cut (grid0.coords t) ((dat0 V c).after 4 t) = _
  rw [after0_4]
  unfold out0_4
  rw [View.canon_unit_zero hz0]
  simp only [View.ld_unit_zero (S := S10000x64) hz0, View.ld_unit_zero (S := S64x128) hz0]
  obtain ⟨-, -, -, -, -, -, -, -, e40, e41⟩ := idx_facts0 t
  funext j
  obtain ⟨r, q, rfl⟩ : ∃ (r : Fin 10000) (q : Fin 128), j = ix2 r q := ⟨j 0, j 1, eq_ix2 j⟩
  show k0_pay3 (iblk0 V c 0 t) (iblk0 V c 2 t) (ix2 r q) = proj0 (V c main_arg0) (V c main_arg4) (((cfg0.win 4).blk t).view.emb (ix2 r q))
  exact prod_blk V c t _ _ (wblk2 V c t) r q _ (by show win0_4.index t (0 : Fin 2) * 10000 + 1 * r.val = _; omega)
    (by show win0_4.index t (1 : Fin 2) * 128 + 1 * q.val = q.val; omega)

-- row p lies in the block of point p / 10000
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := by decide
  obtain ⟨t, ht⟩ : ∃ t : Fin cfg0.N, t.val = (i 0).val / 10000 := ⟨⟨_, show (i 0).val / 10000 < grid0.N by omega⟩, rfl⟩
  obtain ⟨-, -, -, -, -, -, e30, e31, -⟩ := idx_facts0 t
  refine ⟨t, flush0_3 t, ?_⟩
  show i ∈ ((View.whole main_v7_0).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

theorem covered0_4 (i : S100000x128.Idx) :
    ∃ t : Fin cfg0.N, (cfg0.win 4).flush t = true ∧ i ∈ ((cfg0.win 4).blk t).view.set := by
  obtain ⟨t, -, h⟩ := covered0_3 i
  exact ⟨t, flush0_4 t, h⟩

theorem arr0_3_eq (c : Dev nD) : (dat0 (F := Ideal) V c).arrAt 3 cfg0.N = proj0 (V c main_arg0) (V c main_arg2) :=
  (dat0 V c).arrAt_eq_of_cover 3 _ (fun t _ => flushed0_3_eq V c t) covered0_3

theorem arr0_4_eq (c : Dev nD) : (dat0 (F := Ideal) V c).arrAt 4 cfg0.N = proj0 (V c main_arg0) (V c main_arg4) :=
  (dat0 V c).arrAt_eq_of_cover 4 _ (fun t _ => flushed0_4_eq V c t) covered0_4

end Cert.KernelIdeal.Val

end
-- ==== Proof.KI.Reg1Pieces.lean ====
import proofs.«118818_j27127013442152_1_alg».proof.Proof.KI.Reg1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the zero offsets of a whole access
theorem hz1x128 : (![0, 0] : Fin 2 → Nat) = fun _ => 0 := funext fun a => by fin_cases a <;> rfl

-- each block's last store is whole, so the block ends at that store's payload
section
variable (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)

theorem runOuts1_A (hc0 : cond1_0 i) (x0 : Vec F S10000x128 .f32) (x1 : Vec F S10000x128 .f32) (x2 : Vec F S1x128 .f32) :
    runOuts1 (kernelRun1_A c i arg1 harg1 arg2 harg2 arg3 harg3 arg4 harg4 arg5 harg5 arg6 harg6 arg7 harg7 hc0 x0 x1 x2) = (k1_pay4 x0 x1 x2 (k1_pay1 (F := F)), k1_pay5 x0 x1 x2 (k1_pay2 (F := F)), k1_pay4 x0 x1 x2 (k1_pay1 (F := F)), k1_pay5 x0 x1 x2 (k1_pay2 (F := F))) := by
  unfold runOuts1
  refine congrArg₂ Prod.mk ?_ (congrArg₂ Prod.mk ?_ (congrArg₂ Prod.mk ?_ ?_)) <;>
  (rw [View.read_writes_junk_eq_canon]; unfold kernelRun1_A; dsimp only; sl_unfold_words; rw [View.canon_cons_unit_zero (S := S1x128) hz1x128]; simp only [View.readCov_cons_toLoadRect, View.readAt_eq_ld, harg1.read_unread, harg2.read_unread, harg3.read_unread, harg6.read_unread, harg7.read_unread, View.ld_unit_zero (S := S10000x128) hz1x128, View.ld_unit_zero (S := S1x128) hz1x128])

theorem runOuts1_B (hc0 : ¬cond1_0 i) (x0 : Vec F S10000x128 .f32) (x1 : Vec F S10000x128 .f32) (x2 : Vec F S1x128 .f32) (xs0 : Vec F S1x128 .f32) (xs1 : Vec F S1x128 .f32) :
    runOuts1 (kernelRun1_B c i arg1 harg1 arg2 harg2 arg3 harg3 arg4 harg4 arg5 harg5 arg6 harg6 arg7 harg7 hc0 x0 x1 x2 xs0 xs1) = (k1_pay4 x0 x1 x2 xs0, k1_pay5 x0 x1 x2 xs1, k1_pay4 x0 x1 x2 xs0, k1_pay5 x0 x1 x2 xs1) := by
  unfold runOuts1
  refine congrArg₂ Prod.mk ?_ (congrArg₂ Prod.mk ?_ (congrArg₂ Prod.mk ?_ ?_)) <;>
  (rw [View.read_writes_junk_eq_canon]; unfold kernelRun1_B; dsimp only; sl_unfold_words; rw [View.canon_cons_unit_zero (S := S1x128) hz1x128]; simp only [View.readCov_cons_toLoadRect, View.readAt_eq_ld, harg1.read_unread, harg2.read_unread, harg3.read_unread, harg6.read_unread, harg7.read_unread, View.ld_unit_zero (S := S10000x128) hz1x128, View.ld_unit_zero (S := S1x128) hz1x128])

end

section
variable (V : (c : Dev nD) → (b : Ref sig .tc) → Buf (Elt F) ((c : Thread nD τ).loc b))

theorem outsAt1_zero (c : Dev nD) (hn : 0 < cfg1.N) :
    outsAt1 V c 0 hn =
     (k1_pay4 (iblk1 V c 0 ⟨0, hn⟩) (iblk1 V c 1 ⟨0, hn⟩) (iblk1 V c 2 ⟨0, hn⟩) (k1_pay1 (F := F)), k1_pay5 (iblk1 V c 0 ⟨0, hn⟩) (iblk1 V c 1 ⟨0, hn⟩) (iblk1 V c 2 ⟨0, hn⟩) (k1_pay2 (F := F)),
      k1_pay4 (iblk1 V c 0 ⟨0, hn⟩) (iblk1 V c 1 ⟨0, hn⟩) (iblk1 V c 2 ⟨0, hn⟩) (k1_pay1 (F := F)), k1_pay5 (iblk1 V c 0 ⟨0, hn⟩) (iblk1 V c 1 ⟨0, hn⟩) (iblk1 V c 2 ⟨0, hn⟩) (k1_pay2 (F := F))) :=
  runOuts1_A _ _ _ _ _ _ _ _ _ _ _ _ _ _ _ _ _ _ _ _

theorem outsAt1_succ (c : Dev nD) (n : ℕ) (hn : n + 1 < cfg1.N) :
    outsAt1 V c (n + 1) hn =
     (k1_pay4 (iblk1 V c 0 ⟨n + 1, hn⟩) (iblk1 V c 1 ⟨n + 1, hn⟩) (iblk1 V c 2 ⟨n + 1, hn⟩) (outsAt1 V c n (Nat.lt_of_succ_lt hn)).2.2.1, k1_pay5 (iblk1 V c 0 ⟨n + 1, hn⟩) (iblk1 V c 1 ⟨n + 1, hn⟩) (iblk1 V c 2 ⟨n + 1, hn⟩) (outsAt1 V c n (Nat.lt_of_succ_lt hn)).2.2.2,
      k1_pay4 (iblk1 V c 0 ⟨n + 1, hn⟩) (iblk1 V c 1 ⟨n + 1, hn⟩) (iblk1 V c 2 ⟨n + 1, hn⟩) (outsAt1 V c n (Nat.lt_of_succ_lt hn)).2.2.1, k1_pay5 (iblk1 V c 0 ⟨n + 1, hn⟩) (iblk1 V c 1 ⟨n + 1, hn⟩) (iblk1 V c 2 ⟨n + 1, hn⟩) (outsAt1 V c n (Nat.lt_of_succ_lt hn)).2.2.2) :=
  runOuts1_B _ _ _ _ _ _ _ _ _ _ _ _ _ _ _ _ _ _ _ _ _ _

end

end Cert.KernelIdeal.Gen

end
-- ==== Proof.KI.Val1Pay.lean ====
import proofs.«118818_j27127013442152_1_alg».proof.Proof.Gen.KernelIdeal.Skeleton
import proofs.«118818_j27127013442152_1_alg».proof.Proof.Spec
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx
open Cert.KernelIdeal Cert.KernelIdeal.Gen

theorem lane_sum (src : FVec Ideal S10000x128 .f32) (h : S10000x128.Reduces [0] S128) (hφ : FKind.Formats .f32)
    (hacc : (0x00000000#32 : BitVec 32) = 0x00000000#32) (q : Fin 128) :
    multiReduction (F := Ideal) .add [0] S128 src 0x00000000#32 h hφ hacc (ix1 q) = ∑ r : Fin 10000, src (ix2 r q) :=
  (Ideal.multiReduction_add_single src 0x00000000#32 h hφ hacc (ix1 q)).trans
    (Finset.sum_congr rfl fun r _ => congrArg src (funext fun a => match a with
      | ⟨0, _⟩ => Fin.ext rfl
      | ⟨1, _⟩ => Fin.ext rfl))

variable (x0 x1 : Vec Ideal S10000x128 .f32) (x2 xs : Vec Ideal S1x128 .f32) (q : Fin 128)

theorem k1_pay1_apply : k1_pay1 (F := Ideal) (ix2 0 q) = Cert.Spec.z0 := by
  unfold k1_pay1
  rw [shapeCast_self]
  rfl

theorem k1_pay2_apply : k1_pay2 (F := Ideal) (ix2 0 q) = Cert.Spec.z0 := k1_pay1_apply q

theorem k1_pay3_apply (r : Fin 10000) :
    k1_pay3 x0 x1 x2 (ix2 r q) = (x0 (ix2 r q) + x1 (ix2 r q)) + x2 (ix2 0 q) := by
  unfold k1_pay3
  rw [shapeCast_self, shapeCast_self, shapeCast_self, addf_apply, addf_apply, broadcastTo_1b_ab_apply]

theorem k1_pay4_apply :
    k1_pay4 x0 x1 x2 xs (ix2 0 q)
      = xs (ix2 0 q) + ∑ r : Fin 10000, ((x0 (ix2 r q) + x1 (ix2 r q)) + x2 (ix2 0 q)) := by
  unfold k1_pay4
  rw [shapeCast_self, addf_apply, shapeCast_a_1a_apply, lane_sum]
  exact congrArg _ (Finset.sum_congr rfl fun r _ => k1_pay3_apply x0 x1 x2 q r)

theorem k1_pay5_apply :
    k1_pay5 x0 x1 x2 xs (ix2 0 q)
      = xs (ix2 0 q) + ∑ r : Fin 10000, ((x0 (ix2 r q) + x1 (ix2 r q)) + x2 (ix2 0 q))
          * ((x0 (ix2 r q) + x1 (ix2 r q)) + x2 (ix2 0 q)) := by
  unfold k1_pay5
  rw [shapeCast_self, addf_apply, shapeCast_a_1a_apply, lane_sum]
  refine congrArg _ (Finset.sum_congr rfl fun r _ => ?_)
  rw [mulf_apply, k1_pay3_apply]

-- every p < 100000 is 10000 t + r for exactly one t < 10 and r < 10000
theorem tile_sum (f : Fin 100000 → EReal) :
    ∑ t : Fin 10, ∑ r : Fin 10000, f ⟨10000 * t.val + r.val, by omega⟩ = ∑ p : Fin 100000, f p := by
  rw [← Fintype.sum_prod_type']
  exact Fintype.sum_equiv (finProdFinEquiv (m := 10) (n := 10000)) _ _
    (fun x => congrArg f (Fin.ext (by simp only [finProdFinEquiv_apply_val]; omega)))

end Cert.KernelIdeal.Val

end
-- ==== Proof.KI.Val1.lean ====
import proofs.«118818_j27127013442152_1_alg».proof.Proof.KI.Reg1
import proofs.«118818_j27127013442152_1_alg».proof.Proof.KI.Reg1Pieces
import proofs.«118818_j27127013442152_1_alg».proof.Proof.KI.Val1Pay
import Idealize.ShloMosaic.Lib.Pipeline.Value

set_option maxRecDepth 16384

noncomputable section

namespace Cert.KernelIdeal.Val

open Idealize.ShloMosaic Idealize.ShloMosaic.ValueIdx Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

abbrev arrA (c : Dev nD) : FVec Ideal S100000x128 .f32 := V c main_v40
abbrev arrS (c : Dev nD) : FVec Ideal S100000x128 .f32 := V c main_v7_1
abbrev arrB (c : Dev nD) : FVec Ideal S1x128 .f32 := V c main_v41
abbrev ablk (c : Dev nD) (t : Fin 10) : Vec Ideal S10000x128 .f32 := iblk1 V c 0 t
abbrev sblk (c : Dev nD) (t : Fin 10) : Vec Ideal S10000x128 .f32 := iblk1 V c 1 t
abbrev bblk (c : Dev nD) (t : Fin 10) : Vec Ideal S1x128 .f32 := iblk1 V c 2 t

theorem index1_0 : ∀ t : Fin 10, win1_0.index t 0 = t.val ∧ win1_0.index t 1 = 0 := by decide +kernel
theorem index1_2 : ∀ t : Fin 10, win1_2.index t 0 = 0 ∧ win1_2.index t 1 = 0 := by decide +kernel
theorem index1_3 : ∀ t : Fin 10, win1_3.index t 0 = 0 ∧ win1_3.index t 1 = 0 := by decide +kernel

theorem emb1 (t : Fin 10) (r : Fin 10000) (q : Fin 128) :
    ((cfg1.win 0).blk t).view.emb (ix2 r q) = (ix2 (⟨10000 * t.val + r.val, by omega⟩ : Fin 100000) q : S100000x128.Idx) :=
  Shape.idx_ext₂ (by show win1_0.index t 0 * 10000 + 1 * r.val = 10000 * t.val + r.val; rw [(index1_0 t).1]; omega)
    (by show win1_0.index t 1 * 128 + 1 * q.val = q.val; rw [(index1_0 t).2]; omega)

theorem ablk_apply (c : Dev nD) (t : Fin 10) (r : Fin 10000) (q : Fin 128) :
    ablk V c t (ix2 r q) = V c main_v40 (ix2 (⟨10000 * t.val + r.val, by omega⟩ : Fin 100000) q) :=
  congrArg (V c main_v40) (emb1 t r q)

theorem sblk_apply (c : Dev nD) (t : Fin 10) (r : Fin 10000) (q : Fin 128) :
    sblk V c t (ix2 r q) = V c main_v7_1 (ix2 (⟨10000 * t.val + r.val, by omega⟩ : Fin 100000) q) :=
  congrArg (V c main_v7_1) (emb1 t r q)

theorem bblk_apply (c : Dev nD) (t : Fin 10) (q : Fin 128) :
    bblk V c t (ix2 0 q) = V c main_v41 (ix2 0 q) :=
  congrArg (V c main_v41) (Shape.idx_ext₂ (win1_2.rect_emb_val_of_index_zero t 0 (index1_2 t).1 _) (win1_2.rect_emb_val_of_index_zero t 1 (index1_2 t).2 _))

def blockSum (f : Fin 100000 → EReal) (t : ℕ) : EReal :=
  if h : t < 10 then ∑ r : Fin 10000, f ⟨10000 * t + r.val, by omega⟩ else 0

theorem blockSum_of_lt (f : Fin 100000 → EReal) (t : Fin 10) :
    blockSum f t.val = ∑ r : Fin 10000, f ⟨10000 * t.val + r.val, by omega⟩ := dif_pos t.isLt

theorem sum_blockSum (f : Fin 100000 → EReal) : ∑ t ∈ Finset.range 10, blockSum f t = ∑ p : Fin 100000, f p := by
  rw [Finset.sum_range, ← tile_sum f]
  exact Finset.sum_congr rfl fun t _ => blockSum_of_lt f t

def rowv (c : Dev nD) (q : Fin 128) (p : Fin 100000) : EReal :=
  (arrA V c (ix2 p q) + arrS V c (ix2 p q)) + arrB V c (ix2 0 q)

theorem blk_sum (c : Dev nD) (q : Fin 128) (t : Fin 10) :
    ∑ r : Fin 10000, ((ablk V c t (ix2 r q) + sblk V c t (ix2 r q)) + bblk V c t (ix2 0 q))
      = blockSum (rowv V c q) t.val := by
  rw [blockSum_of_lt]
  refine Finset.sum_congr rfl fun r _ => ?_
  rw [ablk_apply, sblk_apply, bblk_apply]
  rfl

theorem blk_sumsq (c : Dev nD) (q : Fin 128) (t : Fin 10) :
    ∑ r : Fin 10000, ((ablk V c t (ix2 r q) + sblk V c t (ix2 r q)) + bblk V c t (ix2 0 q))
        * ((ablk V c t (ix2 r q) + sblk V c t (ix2 r q)) + bblk V c t (ix2 0 q))
      = blockSum (fun p => rowv V c q p * rowv V c q p) t.val := by
  rw [blockSum_of_lt]
  refine Finset.sum_congr rfl fun r _ => ?_
  rw [ablk_apply, sblk_apply, bblk_apply]
  rfl

-- by induction on the point: the first adds its block sum to zero, each later one to what the point before left
theorem outs_closed (c : Dev nD) (q : Fin 128) : ∀ (n : ℕ) (hn : n < cfg1.N),
    (outsAt1 V c n hn).1 (ix2 0 q) = ∑ t ∈ Finset.range (n + 1), blockSum (rowv V c q) t
    ∧ (outsAt1 V c n hn).2.1 (ix2 0 q)
        = ∑ t ∈ Finset.range (n + 1), blockSum (fun p => rowv V c q p * rowv V c q p) t
    ∧ (outsAt1 V c n hn).2.2.1 (ix2 0 q) = ∑ t ∈ Finset.range (n + 1), blockSum (rowv V c q) t
    ∧ (outsAt1 V c n hn).2.2.2 (ix2 0 q)
        = ∑ t ∈ Finset.range (n + 1), blockSum (fun p => rowv V c q p * rowv V c q p) t
  | 0, hn => by
    have h4 := k1_pay4_apply (ablk V c ⟨0, by omega⟩) (sblk V c ⟨0, by omega⟩) (bblk V c ⟨0, by omega⟩)
      (k1_pay1 (F := Ideal)) q
    have h5 := k1_pay5_apply (ablk V c ⟨0, by omega⟩) (sblk V c ⟨0, by omega⟩) (bblk V c ⟨0, by omega⟩)
      (k1_pay2 (F := Ideal)) q
    rw [k1_pay1_apply, Cert.Spec.z0_eq, zero_add, blk_sum] at h4
    rw [k1_pay2_apply, Cert.Spec.z0_eq, zero_add, blk_sumsq] at h5
    rw [outsAt1_zero, Finset.sum_range_one, Finset.sum_range_one]
    exact ⟨h4, h5, h4, h5⟩
  | n + 1, hn => by
    have hN : n + 1 < 10 := lt_of_lt_of_eq hn N_1
    obtain ⟨-, -, ih3, ih4⟩ := outs_closed c q n (Nat.lt_of_succ_lt hn)
    have h4 := k1_pay4_apply (ablk V c ⟨n + 1, hN⟩) (sblk V c ⟨n + 1, hN⟩) (bblk V c ⟨n + 1, hN⟩)
      (outsAt1 V c n (Nat.lt_of_succ_lt hn)).2.2.1 q
    have h5 := k1_pay5_apply (ablk V c ⟨n + 1, hN⟩) (sblk V c ⟨n + 1, hN⟩) (bblk V c ⟨n + 1, hN⟩)
      (outsAt1 V c n (Nat.lt_of_succ_lt hn)).2.2.2 q
    rw [ih3, blk_sum] at h4
    rw [ih4, blk_sumsq] at h5
    have h4' := h4.trans (Finset.sum_range_succ (blockSum (rowv V c q)) (n + 1)).symm
    have h5' := h5.trans (Finset.sum_range_succ (blockSum (fun p => rowv V c q p * rowv V c q p)) (n + 1)).symm
    rw [outsAt1_succ]
    exact ⟨h4', h5', h4', h5'⟩

abbrev t9 : Fin cfg1.N := ⟨9, by rw [show cfg1.N = 10 from N_1]; decide⟩

theorem mod9_iff (t : Fin cfg1.N) : t.val % 10 = 9 ↔ t = t9 := by
  have hN : cfg1.N = 10 := N_1
  constructor
  · intro h; apply Fin.ext; have := t.isLt; show t.val = 9; omega
  · rintro rfl; rfl

theorem arr_last (c : Dev nD) (w : Fin cfg1.W) (h : ∀ t, (cfg1.win w).flush t = true ↔ t.val % 10 = 9)
    (y : ((cfg1.win w).xblock (cfg1.grid.coords t9)).Idx) :
    (dat1 (F := Ideal) V c).arrAt w cfg1.N (((cfg1.win w).blk t9).view.emb y)
      = _root_.cast (congrArg (Elt Ideal) ((cfg1.win w).blk t9).view.elt_eq.symm) ((dat1 (F := Ideal) V c).flushed w t9 y) :=
  (dat1 (F := Ideal) V c).arrAt_emb_eq_flushed w (fun t t' hf hf' hne =>
    absurd (((mod9_iff t).mp ((h t).mp hf)).trans ((mod9_iff t').mp ((h t').mp hf')).symm) hne) t9 ((h t9).mpr rfl) y

theorem emb_last (q : Fin 128) : ((cfg1.win 3).blk t9).view.emb (ix2 0 q) = ix2 0 q :=
  Shape.idx_ext₂ (win1_3.rect_emb_val_of_index_zero t9 0 (index1_3 t9).1 _) (win1_3.rect_emb_val_of_index_zero t9 1 (index1_3 t9).2 _)

theorem arr1_3_apply (c : Dev nD) (a s : S100000x128.Idx → EReal) (b : S1x128.Idx → EReal)
    (ha : a = V c main_v40) (hs : s = V c main_v7_1) (hb : b = V c main_v41)
    (S : S1x128.Idx → EReal) (hS : (dat1 (F := Ideal) V c).arrAt 3 cfg1.N = S) (q : Fin 128) :
    S (ix2 0 q) = ∑ p : Fin 100000, ((a (ix2 p q) + s (ix2 p q)) + b (ix2 0 q)) := by
  subst ha hs hb hS
  have h := arr_last V c 3 flush1_3 (ix2 0 q)
  rw [emb_last q] at h
  refine h.trans ?_
  show (dat1 (F := Ideal) V c).after 3 t9 (ix2 0 q) = _
  rw [after1_3]
  exact (outs_closed V c q 9 t9.isLt).1.trans (sum_blockSum (rowv V c q))

theorem arr1_4_apply (c : Dev nD) (a s : S100000x128.Idx → EReal) (b : S1x128.Idx → EReal)
    (ha : a = V c main_v40) (hs : s = V c main_v7_1) (hb : b = V c main_v41)
    (SS : S1x128.Idx → EReal) (hSS : (dat1 (F := Ideal) V c).arrAt 4 cfg1.N = SS) (q : Fin 128) :
    SS (ix2 0 q) = ∑ p : Fin 100000, ((a (ix2 p q) + s (ix2 p q)) + b (ix2 0 q))
      * ((a (ix2 p q) + s (ix2 p q)) + b (ix2 0 q)) := by
  subst ha hs hb hSS
  have h := arr_last V c 4 flush1_4 (ix2 0 q)
  rw [show ((cfg1.win 4).blk t9).view.emb (ix2 0 q) = ix2 0 q from emb_last q] at h
  refine h.trans ?_
  show (dat1 (F := Ideal) V c).after 4 t9 (ix2 0 q) = _
  rw [after1_4]
  exact (outs_closed V c q 9 t9.isLt).2.1.trans (sum_blockSum fun p => rowv V c q p * rowv V c q p)

end Cert.KernelIdeal.Val

end
-- ==== Proof.KI.Value.lean ====
import proofs.«118818_j27127013442152_1_alg».proof.Proof.KI.Run
import proofs.«118818_j27127013442152_1_alg».proof.Proof.KI.Val2
import proofs.«118818_j27127013442152_1_alg».proof.Proof.KI.HostReads
import proofs.«118818_j27127013442152_1_alg».proof.Proof.KI.ValueGlue
import proofs.«118818_j27127013442152_1_alg».proof.Proof.Chain
import proofs.«118818_j27127013442152_1_alg».proof.Proof.Spec
import proofs.«118818_j27127013442152_1_alg».proof.Proof.KI.Val0
import proofs.«118818_j27127013442152_1_alg».proof.Proof.KI.Val1

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx

attribute [local instance] Cert.KernelIdeal.Gen.facts

theorem norm2_eq_resK (a s : S100000x128.Idx → EReal) (b mu istd g be : S1x128.Idx → EReal)
    (agg sk : S100000x128.Idx → EReal) (bias gam bet : S128.Idx → EReal) (S SS : S1x128.Idx → EReal)
    (ha : a = agg) (hs : s = sk)
    (hb : ∀ q : Fin 128, b (ix2 0 q) = bias (ix1 q))
    (hg : ∀ q : Fin 128, g (ix2 0 q) = gam (ix1 q))
    (hbe : ∀ q : Fin 128, be (ix2 0 q) = bet (ix1 q))
    (hmu : ∀ q : Fin 128, mu (ix2 0 q) = Ideal.div (S (ix2 0 q)) Cert.Spec.n5)
    (histd : ∀ q : Fin 128, istd (ix2 0 q)
      = Ideal.rsqrt ((Ideal.div (SS (ix2 0 q)) Cert.Spec.n5
          - Ideal.div (S (ix2 0 q)) Cert.Spec.n5 * Ideal.div (S (ix2 0 q)) Cert.Spec.n5) + Cert.Spec.eps))
    (hS : ∀ q : Fin 128, S (ix2 0 q) = ∑ p : Fin 100000, ((agg (ix2 p q) + sk (ix2 p q)) + bias (ix1 q)))
    (hSS : ∀ q : Fin 128, SS (ix2 0 q)
      = ∑ p : Fin 100000, ((agg (ix2 p q) + sk (ix2 p q)) + bias (ix1 q)) * ((agg (ix2 p q) + sk (ix2 p q)) + bias (ix1 q)))
    (p : Fin 100000) (q : Fin 128) :
    norm2 a s b mu istd g be p q
      = Cert.Spec.resK (Cert.Spec.outK (fun p q => agg (ix2 p q)) (fun p q => sk (ix2 p q)) (fun q => bias (ix1 q)))
          (fun q => gam (ix1 q)) (fun q => bet (ix1 q)) p q := by
  subst ha hs
  unfold norm2 Cert.Spec.resK Cert.Spec.isK Cert.Spec.muK Cert.Spec.outK
  rw [hb, hg, hbe, hmu, histd, hS, hSS]

variable (m : (ℓ : Loc nD τ sig) → Buf (Elt Ideal) ℓ) (ρ : Dev nD → PrngReg)

def xtK (c : Dev nD) : S100000x128.Idx → EReal := proj0 (m ((c : Thread nD τ).loc main_arg0)) (m ((c : Thread nD τ).loc main_arg2))
def skK (c : Dev nD) : S100000x128.Idx → EReal := proj0 (m ((c : Thread nD τ).loc main_arg0)) (m ((c : Thread nD τ).loc main_arg4))

theorem xtK_apply (c : Dev nD) (p : Fin 100000) (q : Fin 128) (x : S100000x64.Idx → EReal) (w : S64x128.Idx → EReal)
    (hx : x = (m ((c : Thread nD τ).loc main_arg0))) (hw : w = (m ((c : Thread nD τ).loc main_arg2))) :
    xtK m c (ix2 p q) = ∑ k : Fin 64, x (ix2 p k) * w (ix2 k q) := by
  subst hx hw; exact proj0_apply _ _ p q
theorem skK_apply (c : Dev nD) (p : Fin 100000) (q : Fin 128) (x : S100000x64.Idx → EReal) (sw : S64x128.Idx → EReal)
    (hx : x = (m ((c : Thread nD τ).loc main_arg0))) (hsw : sw = (m ((c : Thread nD τ).loc main_arg4))) :
    skK m c (ix2 p q) = ∑ k : Fin 64, x (ix2 p k) * sw (ix2 k q) := by
  subst hx hsw; exact proj0_apply _ _ p q

theorem W2_v7_0 (c : Dev nD) : W2 m ρ c (Proc.devRef .tc main_v7_0) = xtK m c :=
  (W2_main_v7_0 m ρ c).trans ((arr0_3_eq (V1 m ρ) c).trans
    (congrArg₂ proj0 (W1_of m ρ c main_arg0 (by decide)) (W1_of m ρ c main_arg2 (by decide))))
theorem W2_v7_1 (c : Dev nD) : W2 m ρ c (Proc.devRef .tc main_v7_1) = skK m c :=
  (W2_main_v7_1 m ρ c).trans ((arr0_4_eq (V1 m ρ) c).trans
    (congrArg₂ proj0 (W1_of m ρ c main_arg0 (by decide)) (W1_of m ρ c main_arg4 (by decide))))

theorem W3_v40 (c : Dev nD) :
    W3 m ρ c (Proc.devRef .tc main_v40) = Cert.Chain.aggF (F := Ideal) (xtK m c) (m ((c : Thread nD τ).loc main_arg1)) :=
  ((HostReads.after1_v40 (W2 m ρ c)).trans
    (congrArg₂ (Cert.Chain.aggC (F := Ideal) (W2 m ρ c (Proc.devRef .tc main_v7_0)))
      ((W2_of_ne m ρ c main_v5 (by decide)).trans (HostReads.after0_v5 (W0 m ρ c)))
      ((W2_of_ne m ρ c main_v6 (by decide)).trans (HostReads.after0_v6 (W0 m ρ c))))).trans
    (congrArg (fun x => Cert.Chain.aggF (F := Ideal) x (m ((c : Thread nD τ).loc main_arg1))) (W2_v7_0 m ρ c))
theorem W3_v7_1 (c : Dev nD) : W3 m ρ c (Proc.devRef .tc main_v7_1) = skK m c :=
  (HostReads.after1_v7_1 (W2 m ρ c)).trans (W2_v7_1 m ρ c)
theorem W3_v41 (c : Dev nD) :
    W3 m ρ c (Proc.devRef .tc main_v41) = shapeCast S1x128 ((m ((c : Thread nD τ).loc main_arg3)) : FVec Ideal S128 .f32) Facts₀.shapeCasts_S128_S1x128 :=
  (HostReads.after1_v41 (W2 m ρ c)).trans (congrArg (fun x : FVec Ideal S128 .f32 => shapeCast S1x128 x Facts₀.shapeCasts_S128_S1x128)
    ((W2_of_ne m ρ c main_arg3 (by decide)).trans (W1_of m ρ c main_arg3 (by decide))))
theorem W3_v42 (c : Dev nD) :
    W3 m ρ c (Proc.devRef .tc main_v42) = shapeCast S1x128 ((m ((c : Thread nD τ).loc main_arg5)) : FVec Ideal S128 .f32) Facts₀.shapeCasts_S128_S1x128 :=
  (HostReads.after1_v42 (W2 m ρ c)).trans (congrArg (fun x : FVec Ideal S128 .f32 => shapeCast S1x128 x Facts₀.shapeCasts_S128_S1x128)
    ((W2_of_ne m ρ c main_arg5 (by decide)).trans (W1_of m ρ c main_arg5 (by decide))))
theorem W3_v43 (c : Dev nD) :
    W3 m ρ c (Proc.devRef .tc main_v43) = shapeCast S1x128 ((m ((c : Thread nD τ).loc main_arg6)) : FVec Ideal S128 .f32) Facts₀.shapeCasts_S128_S1x128 :=
  (HostReads.after1_v43 (W2 m ρ c)).trans (congrArg (fun x : FVec Ideal S128 .f32 => shapeCast S1x128 x Facts₀.shapeCasts_S128_S1x128)
    ((W2_of_ne m ρ c main_arg6 (by decide)).trans (W1_of m ρ c main_arg6 (by decide))))

theorem V5_in (c : Dev nD) (w : Fin cfg1.W) (hw : (cfg1.win w).isOut = false) (h5 : Pipeline.arrRef spec1 w ∉ hostOps2_W) :
    V5 m ρ c (Pipeline.arrRef spec1 w) = W3 m ρ c (Proc.devRef .tc (Pipeline.arrRef spec1 w)) :=
  (W5_of m ρ c _ h5).trans ((W4_arr m ρ c w).trans (((dat1 (V3 m ρ) c).arrAt_in w hw _).trans (A_eq1 (V3 m ρ) c w)))
theorem V5_ne (c : Dev nD) (r : Ref sig .tc) (h4 : ∀ w, Pipeline.arrRef spec1 w ≠ r) (h5 : r ∉ hostOps2_W) :
    V5 m ρ c r = W3 m ρ c (Proc.devRef .tc r) :=
  (W5_of m ρ c r h5).trans (W4_of_ne m ρ c r h4)

theorem kOut_apply (c : Dev nD) (p : Fin 100000) (q : Fin 128) :
    W6 m ρ c (Proc.devRef .tc main_v54) (ix2 p q)
      = Cert.Spec.resK (Cert.Spec.outK (fun p q => Cert.Chain.aggF (F := Ideal) (xtK m c) (m ((c : Thread nD τ).loc main_arg1)) (ix2 p q))
            (fun p q => skK m c (ix2 p q)) (fun q => (m ((c : Thread nD τ).loc main_arg3)) (ix1 q)))
          (fun q => (m ((c : Thread nD τ).loc main_arg5)) (ix1 q)) (fun q => (m ((c : Thread nD τ).loc main_arg6)) (ix1 q)) p q := by
  refine (congrFun (W6_main_v54 m ρ c) (ix2 p q)).trans ((arr2_7_apply (V5 m ρ) c p q).trans ?_)
  refine norm2_eq_resK _ _ _ _ _ _ _ _ _ _ _ _ (W4 m ρ c (Proc.devRef .tc main_v44_0)) (W4 m ρ c (Proc.devRef .tc main_v44_1))
    ((V5_in m ρ c 0 rfl (by decide)).trans (W3_v40 m ρ c)) ((V5_in m ρ c 1 rfl (by decide)).trans (W3_v7_1 m ρ c))
    ?_ ?_ ?_ ?_ ?_ ?_ ?_ p q
  · intro q; exact (congrFun ((V5_in m ρ c 2 rfl (by decide)).trans (W3_v41 m ρ c)) (ix2 0 q)).trans (row_apply _ q)
  · intro q; exact (congrFun ((V5_ne m ρ c main_v42 (by decide) (by decide)).trans (W3_v42 m ρ c)) (ix2 0 q)).trans (row_apply _ q)
  · intro q; exact (congrFun ((V5_ne m ρ c main_v43 (by decide) (by decide)).trans (W3_v43 m ρ c)) (ix2 0 q)).trans (row_apply _ q)
  · intro q; exact (congrFun (HostReads.after2_v46 (W4 m ρ c)) (ix2 0 q)).trans (mean_apply _ q)
  · intro q; exact (congrFun (HostReads.after2_v53 (W4 m ρ c)) (ix2 0 q)).trans (istd_apply _ _ q)
  · intro q
    refine (arr1_3_apply (V3 m ρ) c _ _ _ (W3_v40 m ρ c).symm (W3_v7_1 m ρ c).symm (W3_v41 m ρ c).symm _
      (W4_main_v44_0 m ρ c).symm q).trans ?_
    exact Finset.sum_congr rfl fun p _ => by rw [row_apply]
  · intro q
    refine (arr1_4_apply (V3 m ρ) c _ _ _ (W3_v40 m ρ c).symm (W3_v7_1 m ρ c).symm (W3_v41 m ρ c).symm _
      (W4_main_v44_1 m ρ c).symm q).trans ?_
    exact Finset.sum_congr rfl fun p _ => by rw [row_apply]

end Cert.KernelIdeal.Val

end
-- ==== Proof.RefRun.lean ====
import proofs.«118818_j27127013442152_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

abbrev opsA1 : List (HloOp τ sig (Elt F)) :=
  [ StableHlo.unary main_arg1 main_v0 ((extractStridedSlice S1x1600000 ![0, 0] · slices_S2x1600000_S1x1600000_0_0) : Vec F S2x1600000 .i32 → Vec F S1x1600000 .i32),
    StableHlo.reshape main_v0 main_v1 rfl shapeCasts_S1x1600000_S1600000,
    StableHlo.unary main_arg1 main_v2 ((extractStridedSlice S1x1600000 ![1, 0] · slices_S2x1600000_S1x1600000_1_0) : Vec F S2x1600000 .i32 → Vec F S1x1600000 .i32),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : Vec F S1600000 .i32 → Vec F S100000 .i32 → Vec F S1700000 .i32),
    StableHlo.binary main_v3 main_v4 main_v6 ((fun a b => concatenate S1700000 0 [⟨S1600000, a⟩, ⟨S100000, b⟩] concatenates_S1600000_S100000_S1700000_d0) : Vec F S1600000 .i32 → Vec F S100000 .i32 → Vec F S1700000 .i32),
    StableHlo.binary main_arg0 main_arg2 main_v7 ((fun l r => Host.dotGeneral dot_S100000x64_S64x128_S100000x128_1_0_0_1_n_n none l r) : Vec F S100000x64 .f32 → Vec F S64x128 .f32 → Vec F S100000x128 .f32) ]

abbrev opsA2 : List (HloOp τ sig (Elt F)) :=
  [ StableHlo.nullary main_cst (constant S_ .f32 0x3F800000#32),
    StableHlo.unary main_cst main_v8 (broadcastInDim S1700000 ![] bcast_S_S1700000 : Vec F S_ .f32 → Vec F S1700000 .f32),
    StableHlo.nullary main_cst_0 (constant S_ .f32 0x00000000#32),
    StableHlo.unary main_cst_0 main_v9 (broadcastInDim S100000 ![] bcast_S_S100000 : Vec F S_ .f32 → Vec F S100000 .f32),
    StableHlo.unary main_v6 main_v10 (broadcastInDim S1700000x1 ![0] bcast_S1700000_S1700000x1_0 : Vec F S1700000 .i32 → Vec F S1700000x1 .i32),
    StableHlo.ternary main_v9 main_v10 main_v8 main_v11 ((fun x i u => Host.scatterAdd scatter_S100000_S1700000x1_S1700000_n_0_0_1 x i u) : Vec F S100000 .f32 → Vec F S1700000x1 .i32 → Vec F S1700000 .f32 → Vec F S100000 .f32),
    StableHlo.unary main_v11 main_v12 (Host.rsqrt : Vec F S100000 .f32 → Vec F S100000 .f32) ]

abbrev opsA3 : List (HloOp τ sig (Elt F)) :=
  [ StableHlo.nullary main_c (constantI S_ 32 0#32),
    StableHlo.unary main_c main_v13 (broadcastInDim S1700000 ![] bcast_S_S1700000 : Vec F S_ .i32 → Vec F S1700000 .i32),
    StableHlo.binary main_v5 main_v13 main_v14 (cmpi .slt : Vec F S1700000 .i32 → Vec F S1700000 .i32 → Vec F S1700000 .i1),
    StableHlo.nullary main_c_1 (constantI S_ 32 100000#32),
    StableHlo.unary main_c_1 main_v15 (broadcastInDim S1700000 ![] bcast_S_S1700000 : Vec F S_ .i32 → Vec F S1700000 .i32),
    StableHlo.binary main_v5 main_v15 main_v16 (addi : Vec F S1700000 .i32 → Vec F S1700000 .i32 → Vec F S1700000 .i32),
    StableHlo.ternary main_v14 main_v16 main_v5 main_v17 (select : Vec F S1700000 .i1 → Vec F S1700000 .i32 → Vec F S1700000 .i32 → Vec F S1700000 .i32),
    StableHlo.unary main_v17 main_v18 (broadcastInDim S1700000x1 ![0] bcast_S1700000_S1700000x1_0 : Vec F S1700000 .i32 → Vec F S1700000x1 .i32),
    StableHlo.binary main_v12 main_v18 main_v19 ((fun x i => Host.gather gather_S100000_S1700000x1_S1700000_n_0_n_n_0_1_1 x i) : Vec F S100000 .f32 → Vec F S1700000x1 .i32 → Vec F S1700000 .f32),
    StableHlo.nullary main_c_2 (constantI S_ 32 0#32),
    StableHlo.unary main_c_2 main_v20 (broadcastInDim S1700000 ![] bcast_S_S1700000 : Vec F S_ .i32 → Vec F S1700000 .i32),
    StableHlo.binary main_v6 main_v20 main_v21 (cmpi .slt : Vec F S1700000 .i32 → Vec F S1700000 .i32 → Vec F S1700000 .i1),
    StableHlo.nullary main_c_3 (constantI S_ 32 100000#32),
    StableHlo.unary main_c_3 main_v22 (broadcastInDim S1700000 ![] bcast_S_S1700000 : Vec F S_ .i32 → Vec F S1700000 .i32),
    StableHlo.binary main_v6 main_v22 main_v23 (addi : Vec F S1700000 .i32 → Vec F S1700000 .i32 → Vec F S1700000 .i32),
    StableHlo.ternary main_v21 main_v23 main_v6 main_v24 (select : Vec F S1700000 .i1 → Vec F S1700000 .i32 → Vec F S1700000 .i32 → Vec F S1700000 .i32),
    StableHlo.unary main_v24 main_v25 (broadcastInDim S1700000x1 ![0] bcast_S1700000_S1700000x1_0 : Vec F S1700000 .i32 → Vec F S1700000x1 .i32),
    StableHlo.binary main_v12 main_v25 main_v26 ((fun x i => Host.gather gather_S100000_S1700000x1_S1700000_n_0_n_n_0_1_1 x i) : Vec F S100000 .f32 → Vec F S1700000x1 .i32 → Vec F S1700000 .f32),
    StableHlo.binary main_v19 main_v26 main_v27 (mulf : Vec F S1700000 .f32 → Vec F S1700000 .f32 → Vec F S1700000 .f32) ]

abbrev opsA4 : List (HloOp τ sig (Elt F)) :=
  [ StableHlo.nullary main_c_4 (constantI S_ 32 0#32),
    StableHlo.unary main_c_4 main_v28 (broadcastInDim S1700000 ![] bcast_S_S1700000 : Vec F S_ .i32 → Vec F S1700000 .i32),
    StableHlo.binary main_v5 main_v28 main_v29 (cmpi .slt : Vec F S1700000 .i32 → Vec F S1700000 .i32 → Vec F S1700000 .i1),
    StableHlo.nullary main_c_5 (constantI S_ 32 100000#32),
    StableHlo.unary main_c_5 main_v30 (broadcastInDim S1700000 ![] bcast_S_S1700000 : Vec F S_ .i32 → Vec F S1700000 .i32),
    StableHlo.binary main_v5 main_v30 main_v31 (addi : Vec F S1700000 .i32 → Vec F S1700000 .i32 → Vec F S1700000 .i32),
    StableHlo.ternary main_v29 main_v31 main_v5 main_v32 (select : Vec F S1700000 .i1 → Vec F S1700000 .i32 → Vec F S1700000 .i32 → Vec F S1700000 .i32),
    StableHlo.unary main_v32 main_v33 (broadcastInDim S1700000x1 ![0] bcast_S1700000_S1700000x1_0 : Vec F S1700000 .i32 → Vec F S1700000x1 .i32),
    StableHlo.binary main_v7 main_v33 main_v34 ((fun x i => Host.gather gather_S100000x128_S1700000x1_S1700000x128_1_0_n_n_0_1_1128 x i) : Vec F S100000x128 .f32 → Vec F S1700000x1 .i32 → Vec F S1700000x128 .f32),
    StableHlo.unary main_v27 main_v35 (broadcastInDim S1700000x1 ![0] bcast_S1700000_S1700000x1_0 : Vec F S1700000 .f32 → Vec F S1700000x1 .f32),
    StableHlo.unary main_v35 main_v36 (broadcastInDim S1700000x128 ![0, 1] bcast_S1700000x1_S1700000x128_0_1 : Vec F S1700000x1 .f32 → Vec F S1700000x128 .f32),
    StableHlo.binary main_v34 main_v36 main_v37 (mulf : Vec F S1700000x128 .f32 → Vec F S1700000x128 .f32 → Vec F S1700000x128 .f32),
    StableHlo.nullary main_cst_6 (constant S_ .f32 0x00000000#32),
    StableHlo.unary main_cst_6 main_v38 (broadcastInDim S100000x128 ![] bcast_S_S100000x128 : Vec F S_ .f32 → Vec F S100000x128 .f32),
    StableHlo.unary main_v6 main_v39 (broadcastInDim S1700000x1 ![0] bcast_S1700000_S1700000x1_0 : Vec F S1700000 .i32 → Vec F S1700000x1 .i32),
    StableHlo.ternary main_v38 main_v39 main_v37 main_v40 ((fun x i u => Host.scatterAdd scatter_S100000x128_S1700000x1_S1700000x128_1_0_0_1 x i u) : Vec F S100000x128 .f32 → Vec F S1700000x1 .i32 → Vec F S1700000x128 .f32 → Vec F S100000x128 .f32) ]

abbrev opsA5 : List (HloOp τ sig (Elt F)) :=
  [ StableHlo.unary main_arg3 main_v41 (broadcastInDim S1x128 ![1] bcast_S128_S1x128_1 : Vec F S128 .f32 → Vec F S1x128 .f32),
    StableHlo.unary main_v41 main_v42 (broadcastInDim S100000x128 ![0, 1] bcast_S1x128_S100000x128_0_1 : Vec F S1x128 .f32 → Vec F S100000x128 .f32),
    StableHlo.binary main_v40 main_v42 main_v43 (addf : Vec F S100000x128 .f32 → Vec F S100000x128 .f32 → Vec F S100000x128 .f32),
    StableHlo.binary main_arg0 main_arg4 main_v44 ((fun l r => Host.dotGeneral dot_S100000x64_S64x128_S100000x128_1_0_0_1_n_n none l r) : Vec F S100000x64 .f32 → Vec F S64x128 .f32 → Vec F S100000x128 .f32),
    StableHlo.binary main_v43 main_v44 main_v45 (addf : Vec F S100000x128 .f32 → Vec F S100000x128 .f32 → Vec F S100000x128 .f32),
    StableHlo.nullary main_cst_7 (constant S_ .f32 0x00000000#32),
    StableHlo.binary main_v45 main_cst_7 main_v46 ((fun x v => Host.reduceAdd x v reducesTo_S100000x128_S128_d0 h_S_) : Vec F S100000x128 .f32 → Vec F S_ .f32 → Vec F S128 .f32),
    StableHlo.nullary main_cst_8 (constant S_ .f32 0x47C35000#32),
    StableHlo.unary main_cst_8 main_v47 (broadcastInDim S128 ![] bcast_S_S128 : Vec F S_ .f32 → Vec F S128 .f32),
    StableHlo.binary main_v46 main_v47 main_v48 (Host.divf : Vec F S128 .f32 → Vec F S128 .f32 → Vec F S128 .f32) ]

abbrev opsB1 : List (HloOp τ sig (Elt F)) :=
  [ StableHlo.nullary main_c_9 (constantI S_ 32 0#32),
    StableHlo.nullary main_call0_cst (constant S_ .f32 0x00000000#32 : Vec F S_ .f32),
    StableHlo.binary main_v45 main_call0_cst main_call0_v0 ((fun x v => Host.reduceAdd x v reducesTo_S100000x128_S128_d0 h_S_) : Vec F S100000x128 .f32 → Vec F S_ .f32 → Vec F S128 .f32),
    StableHlo.unary main_call0_v0 main_call0_v1 (broadcastInDim S1x128 ![1] bcast_S128_S1x128_1 : Vec F S128 .f32 → Vec F S1x128 .f32),
    StableHlo.nullary main_call0_cst_0 (constant S_ .f32 0x47C35000#32 : Vec F S_ .f32),
    StableHlo.unary main_call0_cst_0 main_call0_v2 (broadcastInDim S1x128 ![] bcast_S_S1x128 : Vec F S_ .f32 → Vec F S1x128 .f32),
    StableHlo.binary main_call0_v1 main_call0_v2 main_call0_v3 (Host.divf : Vec F S1x128 .f32 → Vec F S1x128 .f32 → Vec F S1x128 .f32),
    StableHlo.unary main_call0_v3 main_call0_v4 (broadcastInDim S100000x128 ![0, 1] bcast_S1x128_S100000x128_0_1 : Vec F S1x128 .f32 → Vec F S100000x128 .f32),
    StableHlo.binary main_v45 main_call0_v4 main_call0_v5 (subf : Vec F S100000x128 .f32 → Vec F S100000x128 .f32 → Vec F S100000x128 .f32),
    StableHlo.binary main_call0_v5 main_call0_v5 main_call0_v6 (mulf : Vec F S100000x128 .f32 → Vec F S100000x128 .f32 → Vec F S100000x128 .f32),
    StableHlo.unary main_c_9 main_call0_v7 (sitofp .f32 : Vec F S_ .i32 → Vec F S_ .f32),
    StableHlo.nullary main_call0_cst_1 (constant S_ .f32 0x47C35000#32 : Vec F S_ .f32),
    StableHlo.binary main_call0_cst_1 main_call0_v7 main_call0_v8 (subf : Vec F S_ .f32 → Vec F S_ .f32 → Vec F S_ .f32),
    StableHlo.nullary main_call0_cst_2 (constant S_ .f32 0x00000000#32 : Vec F S_ .f32),
    StableHlo.binary main_call0_v6 main_call0_cst_2 main_call0_v9 ((fun x v => Host.reduceAdd x v reducesTo_S100000x128_S128_d0 h_S_) : Vec F S100000x128 .f32 → Vec F S_ .f32 → Vec F S128 .f32),
    StableHlo.unary main_call0_v8 main_call0_v10 (broadcastInDim S128 ![] bcast_S_S128 : Vec F S_ .f32 → Vec F S128 .f32),
    StableHlo.binary main_call0_v9 main_call0_v10 main_call0_v11 (Host.divf : Vec F S128 .f32 → Vec F S128 .f32 → Vec F S128 .f32),
    StableHlo.nullary main_call0_cst_3 (constant S_ .f32 0x00000000#32 : Vec F S_ .f32),
    StableHlo.binary main_call0_v8 main_call0_cst_3 main_call0_v12 (cmpf .ogt : Vec F S_ .f32 → Vec F S_ .f32 → Vec F S_ .i1),
    StableHlo.nullary main_call0_cst_4 (constant S_ .f32 0x7FC00000#32 : Vec F S_ .f32),
    StableHlo.unary main_call0_cst_4 main_call0_call0_v0 (id : Vec F S_ .f32 → Vec F S_ .f32),
    StableHlo.unary main_call0_call0_v0 main_call0_call0_v1 (broadcastInDim S128 ![] bcast_S_S128 : Vec F S_ .f32 → Vec F S128 .f32),
    StableHlo.ternary main_call0_v12 main_call0_v11 main_call0_call0_v1 main_v49 ((fun p a b => select (broadcastInDim S128 ![] bcast_S_S128 p) a b) : Vec F S_ .i1 → Vec F S128 .f32 → Vec F S128 .f32 → Vec F S128 .f32) ]

abbrev opsB2 : List (HloOp τ sig (Elt F)) :=
  [ StableHlo.unary main_v48 main_v50 (broadcastInDim S1x128 ![1] bcast_S128_S1x128_1 : Vec F S128 .f32 → Vec F S1x128 .f32),
    StableHlo.unary main_v50 main_v51 (broadcastInDim S100000x128 ![0, 1] bcast_S1x128_S100000x128_0_1 : Vec F S1x128 .f32 → Vec F S100000x128 .f32),
    StableHlo.binary main_v45 main_v51 main_v52 (subf : Vec F S100000x128 .f32 → Vec F S100000x128 .f32 → Vec F S100000x128 .f32),
    StableHlo.nullary main_cst_10 (constant S_ .f32 0x3727C5AC#32),
    StableHlo.unary main_cst_10 main_v53 (broadcastInDim S128 ![] bcast_S_S128 : Vec F S_ .f32 → Vec F S128 .f32),
    StableHlo.binary main_v49 main_v53 main_v54 (addf : Vec F S128 .f32 → Vec F S128 .f32 → Vec F S128 .f32),
    StableHlo.unary main_v54 main_v55 (Host.rsqrt : Vec F S128 .f32 → Vec F S128 .f32),
    StableHlo.unary main_v55 main_v56 (broadcastInDim S1x128 ![1] bcast_S128_S1x128_1 : Vec F S128 .f32 → Vec F S1x128 .f32),
    StableHlo.unary main_v56 main_v57 (broadcastInDim S100000x128 ![0, 1] bcast_S1x128_S100000x128_0_1 : Vec F S1x128 .f32 → Vec F S100000x128 .f32),
    StableHlo.binary main_v52 main_v57 main_v58 (mulf : Vec F S100000x128 .f32 → Vec F S100000x128 .f32 → Vec F S100000x128 .f32),
    StableHlo.unary main_arg5 main_v59 (broadcastInDim S1x128 ![1] bcast_S128_S1x128_1 : Vec F S128 .f32 → Vec F S1x128 .f32),
    StableHlo.unary main_v59 main_v60 (broadcastInDim S100000x128 ![0, 1] bcast_S1x128_S100000x128_0_1 : Vec F S1x128 .f32 → Vec F S100000x128 .f32),
    StableHlo.binary main_v58 main_v60 main_v61 (mulf : Vec F S100000x128 .f32 → Vec F S100000x128 .f32 → Vec F S100000x128 .f32),
    StableHlo.unary main_arg6 main_v62 (broadcastInDim S1x128 ![1] bcast_S128_S1x128_1 : Vec F S128 .f32 → Vec F S1x128 .f32),
    StableHlo.unary main_v62 main_v63 (broadcastInDim S100000x128 ![0, 1] bcast_S1x128_S100000x128_0_1 : Vec F S1x128 .f32 → Vec F S100000x128 .f32),
    StableHlo.binary main_v61 main_v63 main_v64 (addf : Vec F S100000x128 .f32 → Vec F S100000x128 .f32 → Vec F S100000x128 .f32),
    StableHlo.nullary main_call1_cst (constant S_ .f32 0x00000000#32 : Vec F S_ .f32),
    StableHlo.unary main_call1_cst main_call1_v0 (broadcastInDim S100000x128 ![] bcast_S_S100000x128 : Vec F S_ .f32 → Vec F S100000x128 .f32),
    StableHlo.binary main_v64 main_call1_v0 main_v65 (maximumf : Vec F S100000x128 .f32 → Vec F S100000x128 .f32 → Vec F S100000x128 .f32) ]

abbrev ops : List (HloOp τ sig (Elt F)) :=
  opsA1 ++ (opsA2 ++ (opsA3 ++ (opsA4 ++ (opsA5 ++ (opsB1 ++ opsB2)))))

theorem main_part0_eq (c : Dev nD) :
    main_part0 (F := F) c = seq (opsA1 ++ (opsA2 ++ (opsA3 ++ (opsA4 ++ opsA5)))) := rfl

-- A called function's operation over typed references is the plain operation on the call's own buffers.
theorem main_part1_eq (c : Dev nD) : main_part1 (F := F) c = seq (opsB1 ++ opsB2) := by
  simp only [main_part1, fn_var.body, fn_where.body, fn_relu.body, bind_assoc, pure_bind]
  rfl

theorem main_eq (c : Dev nD) : main (F := F) c = seq ops := by
  show (main_part0 (F := F) c >>= fun _ => main_part1 (F := F) c) = _
  rw [main_part0_eq, main_part1_eq, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' apply And.intro
  all_goals simp only [List.Forall, unary_bufs_sub, binary_bufs_sub, nullary_bufs_sub, ternary_bufs_sub, reshape_bufs_sub]

theorem ops_fresh : ∀ op ∈ (ops : List (HloOp τ sig (Elt F))), op.fresh = ∅ := by
  refine List.forall_iff_forall_mem.mp ?_
  repeat' apply And.intro
  all_goals rfl

abbrev opsA1_W : List (Ref sig .tc) := [main_v0, main_v1, main_v2, main_v3, main_v4, main_v5, main_v6, main_v7]
abbrev opsA2_W : List (Ref sig .tc) := [main_cst, main_v8, main_cst_0, main_v9, main_v10, main_v11, main_v12]
abbrev opsA3_W : List (Ref sig .tc) := [main_c, main_v13, main_v14, main_c_1, main_v15, main_v16, main_v17, main_v18, main_v19, main_c_2,
   main_v20, main_v21, main_c_3, main_v22, main_v23, main_v24, main_v25, main_v26, main_v27]
abbrev opsA4_W : List (Ref sig .tc) := [main_c_4, main_v28, main_v29, main_c_5, main_v30, main_v31, main_v32, main_v33, main_v34, main_v35,
   main_v36, main_v37, main_cst_6, main_v38, main_v39, main_v40]
abbrev opsA5_W : List (Ref sig .tc) := [main_v41, main_v42, main_v43, main_v44, main_v45, main_cst_7, main_v46, main_cst_8, main_v47, main_v48]
abbrev opsB1_W : List (Ref sig .tc) := [main_c_9, main_call0_cst, main_call0_v0, main_call0_v1, main_call0_cst_0, main_call0_v2, main_call0_v3, main_call0_v4, main_call0_v5, main_call0_v6,
   main_call0_v7, main_call0_cst_1, main_call0_v8, main_call0_cst_2, main_call0_v9, main_call0_v10, main_call0_v11, main_call0_cst_3, main_call0_v12, main_call0_cst_4,
   main_call0_call0_v0, main_call0_call0_v1, main_v49]
abbrev opsB2_W : List (Ref sig .tc) := [main_v50, main_v51, main_v52, main_cst_10, main_v53, main_v54, main_v55, main_v56, main_v57, main_v58,
   main_v59, main_v60, main_v61, main_v62, main_v63, main_v64, main_call1_cst, main_call1_v0, main_v65]
abbrev opsW : List (Ref sig .tc) :=
  opsA1_W ++ (opsA2_W ++ (opsA3_W ++ (opsA4_W ++ (opsA5_W ++ (opsB1_W ++ opsB2_W)))))

/-- Every operation of `l` writes a buffer of `W`. -/
abbrev WritesIn (l : List (HloOp τ sig (Elt F))) (W : List (Ref sig .tc)) : Prop :=
  l.Forall fun op => op.writes ⊆ (W.map (Proc.devRef (τ := τ) .tc)).toFinset

theorem sub_of_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem opsA1_w : WritesIn (F := F) opsA1 opsA1_W := by
  repeat' apply And.intro
  all_goals exact sub_of_mem (by decide)
theorem opsA2_w : WritesIn (F := F) opsA2 opsA2_W := by
  repeat' apply And.intro
  all_goals exact sub_of_mem (by decide)
theorem opsA3_w : WritesIn (F := F) opsA3 opsA3_W := by
  repeat' apply And.intro
  all_goals exact sub_of_mem (by decide)
theorem opsA4_w : WritesIn (F := F) opsA4 opsA4_W := by
  repeat' apply And.intro
  all_goals exact sub_of_mem (by decide)
theorem opsA5_w : WritesIn (F := F) opsA5 opsA5_W := by
  repeat' apply And.intro
  all_goals exact sub_of_mem (by decide)
theorem opsB1_w : WritesIn (F := F) opsB1 opsB1_W := by
  repeat' apply And.intro
  all_goals exact sub_of_mem (by decide)
theorem ops_w : WritesIn (F := F) ops opsW := by
  repeat' apply And.intro
  all_goals exact sub_of_mem (by decide)

theorem after_ops_keep (V : Valuation τ sig (Elt F)) (r : Ref sig .tc) (h : r ∉ opsW) :
    after ops V (Proc.devRef .tc r) = V (Proc.devRef .tc r) :=
  after_of_writes_sub ops V ops_w h

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v65) = after ops (fun b => m (c, b)) (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have k (r : Ref sig .tc) (hr : r ∉ opsW) : _ = m ((c.tc : Thread nD τ).loc r) := (h c r).trans (after_ops_keep _ r hr)
    ⟨h c main_v65, k main_arg0 (by decide), k main_arg1 (by decide), k main_arg2 (by decide), k main_arg3 (by decide),
      k main_arg4 (by decide), k main_arg5 (by decide), k main_arg6 (by decide)⟩)
    (run_all m ρ)

end Cert.ReferenceIdeal.Hand

end
-- ==== Proof.LibIndexReads.lean ====
import Idealize.ShloMosaic.Lib.ValueIdx
import Idealize.ShloMosaic.Lib.Pipeline.Value

namespace Idealize.ShloMosaic.IndexReads

open Idealize.ShloMosaic Idealize.ShloMosaic.ValueIdx

variable {α : Type}

/-- A vector laid as a column reads, at `(e, 0)`, the vector at `e`. -/
theorem col_apply {n : Nat} (h : (⟨1, ![n]⟩ : Shape).BroadcastsInDim ⟨2, ![n, 1]⟩ ![0])
    (x : (⟨1, ![n]⟩ : Shape).Idx → α) (e : Fin n) :
    broadcastInDim ⟨2, ![n, 1]⟩ ![0] h x (ix2 e 0) = x (ix1 e) :=
  broadcastInDim_apply _ h x (ix2 e 0) (ix1 e) (fun a => by
    obtain rfl : a = 0 := Subsingleton.elim _ _
    have he : e.val < n := e.isLt
    show e.val = if n = 1 then 0 else e.val
    split <;> omega)

/-- A scalar splat reads the scalar everywhere. -/
theorem splat_apply {t : Shape} (h : (⟨0, ![]⟩ : Shape).BroadcastsInDim t ![])
    (x : (⟨0, ![]⟩ : Shape).Idx → α) (j : t.Idx) :
    broadcastInDim t ![] h x j = x ix0 :=
  broadcastInDim_apply _ h x j ix0 (fun a => a.elim0)

end Idealize.ShloMosaic.IndexReads
-- ==== Proof.RefMath.lean ====
import proofs.«118818_j27127013442152_1_alg».proof.ReferenceIdeal
import proofs.«118818_j27127013442152_1_alg».proof.Proof.Gen.ReferenceIdeal
import proofs.«118818_j27127013442152_1_alg».proof.Proof.Spec
import proofs.«118818_j27127013442152_1_alg».proof.Proof.LibIndexReads
import Idealize.ShloMosaic.PureOps.Ideal.Laws
import Idealize.ShloMosaic.Lib.ValueIdx
import Idealize.ShloMosaic.Lib.Pipeline.Value

noncomputable section

namespace Cert.RefMath

open Idealize.ShloMosaic Idealize.ShloMosaic.ValueIdx Idealize.ShloMosaic.IndexReads
open Cert.ReferenceIdeal Cert.ReferenceIdeal.Facts₀

def xtR (x : FVec Ideal S100000x64 .f32) (w : FVec Ideal S64x128 .f32) : FVec Ideal S100000x128 .f32 :=
  Host.dotGeneral (F := Ideal) dot_S100000x64_S64x128_S100000x128_1_0_0_1_n_n none x w

def outRv (agg : FVec Ideal S100000x128 .f32) (b : FVec Ideal S128 .f32) (sk : FVec Ideal S100000x128 .f32) :
    FVec Ideal S100000x128 .f32 :=
  addf (addf agg (broadcastInDim S100000x128 ![0, 1] bcast_S1x128_S100000x128_0_1 (broadcastInDim S1x128 ![1] bcast_S128_S1x128_1 b))) sk

def meanRv (o : FVec Ideal S100000x128 .f32) : FVec Ideal S128 .f32 :=
  Host.divf (F := Ideal) (Host.reduceAdd (F := Ideal) o (constant (F := Ideal) S_ .f32 0x00000000#32) reducesTo_S100000x128_S128_d0 h_S_)
    (broadcastInDim S128 ![] bcast_S_S128 (constant (F := Ideal) S_ .f32 0x47C35000#32))

def varMeanRv (o : FVec Ideal S100000x128 .f32) : FVec Ideal S100000x128 .f32 :=
  broadcastInDim S100000x128 ![0, 1] bcast_S1x128_S100000x128_0_1
    (Host.divf (F := Ideal)
      (broadcastInDim S1x128 ![1] bcast_S128_S1x128_1
        (Host.reduceAdd (F := Ideal) o (constant (F := Ideal) S_ .f32 0x00000000#32) reducesTo_S100000x128_S128_d0 h_S_))
      (broadcastInDim S1x128 ![] bcast_S_S1x128 (constant (F := Ideal) S_ .f32 0x47C35000#32)))

def varDenRv : FVec Ideal S_ .f32 :=
  subf (constant (F := Ideal) S_ .f32 0x47C35000#32) (sitofp (F := Ideal) .f32 (constantI S_ 32 0#32))

def varRv (o : FVec Ideal S100000x128 .f32) : FVec Ideal S128 .f32 :=
  select
    (broadcastInDim S128 ![] bcast_S_S128 (cmpf (F := Ideal) .ogt varDenRv (constant (F := Ideal) S_ .f32 0x00000000#32)))
    (Host.divf (F := Ideal)
      (Host.reduceAdd (F := Ideal) (mulf (subf o (varMeanRv o)) (subf o (varMeanRv o))) (constant (F := Ideal) S_ .f32 0x00000000#32)
        reducesTo_S100000x128_S128_d0 h_S_)
      (broadcastInDim S128 ![] bcast_S_S128 varDenRv))
    (broadcastInDim S128 ![] bcast_S_S128 (id (constant (F := Ideal) S_ .f32 0x7FC00000#32)))

def resRv (o : FVec Ideal S100000x128 .f32) (g be : FVec Ideal S128 .f32) : FVec Ideal S100000x128 .f32 :=
  maximumf
    (addf
      (mulf
        (mulf
          (subf o (broadcastInDim S100000x128 ![0, 1] bcast_S1x128_S100000x128_0_1 (broadcastInDim S1x128 ![1] bcast_S128_S1x128_1 (meanRv o))))
          (broadcastInDim S100000x128 ![0, 1] bcast_S1x128_S100000x128_0_1 (broadcastInDim S1x128 ![1] bcast_S128_S1x128_1
            (Host.rsqrt (F := Ideal) (addf (varRv o) (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 be)))
    (broadcastInDim S100000x128 ![] bcast_S_S100000x128 (constant (F := Ideal) S_ .f32 0x00000000#32))

variable {α : Type}

theorem lane_apply (v : S128.Idx → α) (u : Fin 1) (q : Fin 128) :
    broadcastInDim S1x128 ![1] bcast_S128_S1x128_1 v (ix2 u q) = v (ix1 q) :=
  broadcastInDim_apply _ bcast_S128_S1x128_1 v (ix2 u q) (ix1 q) (fun a => by match a with | ⟨0, _⟩ => rfl)

theorem row_apply (v : S1x128.Idx → α) (p : Fin 100000) (q : Fin 128) :
    broadcastInDim S100000x128 ![0, 1] bcast_S1x128_S100000x128_0_1 v (ix2 p q) = v (ix2 (0 : Fin 1) q) :=
  broadcastInDim_apply _ bcast_S1x128_S100000x128_0_1 v (ix2 p q) (ix2 (0 : Fin 1) q) (fun a => by
    match a with | ⟨0, _⟩ => rfl | ⟨1, _⟩ => rfl)

theorem lane_row_apply (v : S128.Idx → α) (p : Fin 100000) (q : Fin 128) :
    broadcastInDim S100000x128 ![0, 1] bcast_S1x128_S100000x128_0_1 (broadcastInDim S1x128 ![1] bcast_S128_S1x128_1 v) (ix2 p q)
      = v (ix1 q) := by
  rw [row_apply, lane_apply]

theorem laneSum_apply (x : FVec Ideal S100000x128 .f32) (init : FVec Ideal S_ .f32) (q : Fin 128) :
    Host.reduceAdd (F := Ideal) x init reducesTo_S100000x128_S128_d0 h_S_ (ix1 q)
      = init ix0 + ∑ p : Fin 100000, x (ix2 p q) := by
  simp only [Host.reduceAdd, Ideal.hostReduceAdd_def]
  rw [Ideal.hostReduceAdd_single reducesTo_S100000x128_S128_d0 (by decide)]
  refine congrArg₂ (· + ·) (congrArg init (funext fun a => a.elim0)) (Finset.sum_congr rfl fun k _ => ?_)
  exact congrArg x (funext fun a => Fin.ext (by match a with | ⟨0, _⟩ => rfl | ⟨1, _⟩ => rfl))

theorem xtR_apply (x : FVec Ideal S100000x64 .f32) (w : FVec Ideal S64x128 .f32) (p : Fin 100000) (q : Fin 128) :
    xtR x w (ix2 p q) = ∑ k : Fin 64, x (ix2 p k) * w (ix2 k q) := by
  unfold xtR
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx (ix2 p q)
      ((ValueIdx.contrEquiv1 dot_S100000x64_S64x128_S100000x128_1_0_0_1_n_n 64 rfl rfl).symm k) = ix2 p k :=
    funext fun a => Fin.ext (by
      match a with
      | ⟨0, _⟩ => rfl
      | ⟨1, _⟩ => exact (dot_S100000x64_S64x128_S100000x128_1_0_0_1_n_n.lhsIdx_val_of_single rfl _ _).trans hk)
  have er : dot_S100000x64_S64x128_S100000x128_1_0_0_1_n_n.rhsIdx (ix2 p q)
      ((ValueIdx.contrEquiv1 dot_S100000x64_S64x128_S100000x128_1_0_0_1_n_n 64 rfl rfl).symm k) = ix2 k q :=
    funext fun a => Fin.ext (by
      match a with
      | ⟨0, _⟩ => exact (dot_S100000x64_S64x128_S100000x128_1_0_0_1_n_n.rhsIdx_val_of_single rfl _ _).trans hk
      | ⟨1, _⟩ => rfl)
  rw [el, er]

theorem outRv_apply (agg : FVec Ideal S100000x128 .f32) (b : FVec Ideal S128 .f32) (sk : FVec Ideal S100000x128 .f32)
    (p : Fin 100000) (q : Fin 128) :
    outRv agg b sk (ix2 p q)
      = Cert.Spec.outR (fun p q => agg (ix2 p q)) (fun p q => sk (ix2 p q)) (fun q => b (ix1 q)) p q := by
  unfold outRv Cert.Spec.outR
  rw [addf_apply, addf_apply, lane_row_apply]

theorem meanRv_apply (o : FVec Ideal S100000x128 .f32) (q : Fin 128) :
    meanRv o (ix1 q) = Cert.Spec.muR (fun p q => o (ix2 p q)) q := by
  unfold meanRv Cert.Spec.muR
  show Ideal.div (Host.reduceAdd (F := Ideal) o _ reducesTo_S100000x128_S128_d0 h_S_ (ix1 q))
      (broadcastInDim S128 ![] bcast_S_S128 (constant (F := Ideal) S_ .f32 0x47C35000#32) (ix1 q)) = _
  rw [laneSum_apply, splat_apply]
  rfl

theorem varMeanRv_apply (o : FVec Ideal S100000x128 .f32) (p : Fin 100000) (q : Fin 128) :
    varMeanRv o (ix2 p q) = Cert.Spec.muR (fun p q => o (ix2 p q)) q := by
  unfold varMeanRv Cert.Spec.muR
  rw [row_apply]
  show Ideal.div (broadcastInDim S1x128 ![1] bcast_S128_S1x128_1
        (Host.reduceAdd (F := Ideal) o _ reducesTo_S100000x128_S128_d0 h_S_) (ix2 (0 : Fin 1) q))
      (broadcastInDim S1x128 ![] bcast_S_S1x128 (constant (F := Ideal) S_ .f32 0x47C35000#32) (ix2 (0 : Fin 1) q)) = _
  rw [lane_apply, laneSum_apply, splat_apply]
  rfl

theorem varDenRv_apply : varDenRv ix0 = Cert.Spec.n5 - (((0#32 : BitVec 32).toInt : ℝ) : EReal) := rfl

theorem varDen_pos : Cert.Spec.z0 < Cert.Spec.n5 - (((0#32 : BitVec 32).toInt : ℝ) : EReal) := by
  rw [Cert.Spec.z0_eq, Cert.Spec.n5_eq, BitVec.toInt_zero, Int.cast_zero, EReal.coe_zero, sub_zero]
  exact_mod_cast (by norm_num : (0 : ℝ) < 100000)

theorem varRv_apply (o : FVec Ideal S100000x128 .f32) (q : Fin 128) :
    varRv o (ix1 q) = Cert.Spec.varR (fun p q => o (ix2 p q)) q := by
  unfold varRv
  rw [select_apply, splat_apply]
  have hc : cmpf (F := Ideal) .ogt varDenRv (constant (F := Ideal) S_ .f32 0x00000000#32) ix0 = 1#1 := by
    show Ideal.cmp .ogt (varDenRv ix0) Cert.Spec.z0 = 1#1
    rw [varDenRv_apply]
    unfold Ideal.cmp
    rw [decide_eq_true varDen_pos]
    rfl
  rw [hc, select_one]
  unfold Cert.Spec.varR
  show Ideal.div (Host.reduceAdd (F := Ideal) _ _ reducesTo_S100000x128_S128_d0 h_S_ (ix1 q))
      (broadcastInDim S128 ![] bcast_S_S128 varDenRv (ix1 q)) = _
  rw [laneSum_apply, splat_apply, varDenRv_apply]
  refine congrArg₂ Ideal.div (congrArg₂ (· + ·) rfl (Finset.sum_congr rfl fun p _ => ?_)) rfl
  rw [mulf_apply, subf_apply, varMeanRv_apply]

theorem resRv_apply (o : FVec Ideal S100000x128 .f32) (g be : FVec Ideal S128 .f32) (p : Fin 100000) (q : Fin 128) :
    resRv o g be (ix2 p q)
      = Cert.Spec.resR (fun p q => o (ix2 p q)) (fun q => g (ix1 q)) (fun q => be (ix1 q)) p q := by
  unfold resRv Cert.Spec.resR
  rw [maximumf_apply, addf_apply, mulf_apply, mulf_apply, subf_apply, lane_row_apply, lane_row_apply, lane_row_apply,
    lane_row_apply, splat_apply, meanRv_apply]
  show max ((((o (ix2 p q) - _) * Ideal.rsqrt (varRv o (ix1 q)
      + broadcastInDim S128 ![] bcast_S_S128 (constant (F := Ideal) S_ .f32 0x3727C5AC#32) (ix1 q))) * g (ix1 q)) + be (ix1 q))
      (Ideal.ofBits .f32 0x00000000#32) = _
  rw [varRv_apply, splat_apply]
  rfl

end Cert.RefMath

end
-- ==== Proof.RefRead.lean ====
import proofs.«118818_j27127013442152_1_alg».proof.Proof.RefRun
import proofs.«118818_j27127013442152_1_alg».proof.Proof.RefMath
import proofs.«118818_j27127013442152_1_alg».proof.Proof.Chain

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Cert.RefMath Cert.Chain

variable (V : Valuation τ sig (Elt Ideal))

/-- The row values from the arguments' contents: the aggregate of the projected features, plus the bias, plus the skip projection. -/
def rowsR : FVec Ideal S100000x128 .f32 :=
  outRv (aggF (xtR (V (Proc.devRef .tc main_arg0)) (V (Proc.devRef .tc main_arg2))) (V (Proc.devRef .tc main_arg1))) (V (Proc.devRef .tc main_arg3)) (xtR (V (Proc.devRef .tc main_arg0)) (V (Proc.devRef .tc main_arg4)))

def W1 : Valuation τ sig (Elt Ideal) := after (opsA1 (F := Ideal)) V
theorem W1_keep (r : Ref sig .tc) (h : r ∉ opsA1_W) : W1 V (no_index (Proc.devRef .tc r)) = V (Proc.devRef .tc r) :=
  after_of_writes_sub _ _ opsA1_w h
def W2 : Valuation τ sig (Elt Ideal) := after (opsA2 (F := Ideal)) (W1 V)
theorem W2_keep (r : Ref sig .tc) (h : r ∉ opsA2_W) : W2 V (no_index (Proc.devRef .tc r)) = (W1 V) (Proc.devRef .tc r) :=
  after_of_writes_sub _ _ opsA2_w h
def W3 : Valuation τ sig (Elt Ideal) := after (opsA3 (F := Ideal)) (W2 V)
theorem W3_keep (r : Ref sig .tc) (h : r ∉ opsA3_W) : W3 V (no_index (Proc.devRef .tc r)) = (W2 V) (Proc.devRef .tc r) :=
  after_of_writes_sub _ _ opsA3_w h
def W4 : Valuation τ sig (Elt Ideal) := after (opsA4 (F := Ideal)) (W3 V)
theorem W4_keep (r : Ref sig .tc) (h : r ∉ opsA4_W) : W4 V (no_index (Proc.devRef .tc r)) = (W3 V) (Proc.devRef .tc r) :=
  after_of_writes_sub _ _ opsA4_w h
def W5 : Valuation τ sig (Elt Ideal) := after (opsA5 (F := Ideal)) (W4 V)
theorem W5_keep (r : Ref sig .tc) (h : r ∉ opsA5_W) : W5 V (no_index (Proc.devRef .tc r)) = (W4 V) (Proc.devRef .tc r) :=
  after_of_writes_sub _ _ opsA5_w h
def W6 : Valuation τ sig (Elt Ideal) := after (opsB1 (F := Ideal)) (W5 V)
theorem W6_keep (r : Ref sig .tc) (h : r ∉ opsB1_W) : W6 V (no_index (Proc.devRef .tc r)) = (W5 V) (Proc.devRef .tc r) :=
  after_of_writes_sub _ _ opsB1_w h
def W7 : Valuation τ sig (Elt Ideal) := after (opsB2 (F := Ideal)) (W6 V)

theorem W1_v5 : W1 V (no_index (Proc.devRef .tc main_v5)) = rowV (V (Proc.devRef .tc main_arg1)) := by
  unfold W1
  simp only [opsA1]
  after_results
  rfl
theorem W1_v6 : W1 V (no_index (Proc.devRef .tc main_v6)) = colV (V (Proc.devRef .tc main_arg1)) := by
  unfold W1
  simp only [opsA1]
  after_results
  rfl
theorem W1_v7 : W1 V (no_index (Proc.devRef .tc main_v7)) = xtR (V (Proc.devRef .tc main_arg0)) (V (Proc.devRef .tc main_arg2)) := by
  unfold W1
  simp only [opsA1]
  after_results_simp
  rfl
theorem W2_v12 : W2 V (no_index (Proc.devRef .tc main_v12)) = Host.rsqrt (degV (F := Ideal) (colV (V (Proc.devRef .tc main_arg1)))) := by
  unfold W2
  simp only [opsA2]
  after_results_simp
  simp only [W1_v6]
  rfl
theorem W3_v27 : W3 V (no_index (Proc.devRef .tc main_v27)) = normV (F := Ideal) (rowV (V (Proc.devRef .tc main_arg1))) (colV (V (Proc.devRef .tc main_arg1))) := by
  unfold W3
  simp only [opsA3]
  after_results_simp
  simp (disch := decide) only [W2_keep, W1_v5, W1_v6, W2_v12]
  rfl
theorem W4_v40 : W4 V (no_index (Proc.devRef .tc main_v40)) = aggF (xtR (V (Proc.devRef .tc main_arg0)) (V (Proc.devRef .tc main_arg2))) (V (Proc.devRef .tc main_arg1)) := by
  unfold W4
  simp only [opsA4]
  after_results_simp
  simp (disch := decide) only [W3_keep, W2_keep, W1_v5, W1_v6, W1_v7, W3_v27]
  rfl
theorem W5_v : W5 V (no_index (Proc.devRef .tc main_v45)) = rowsR V ∧ W5 V (no_index (Proc.devRef .tc main_v48)) = meanRv (rowsR V) := by
  constructor <;>
    (unfold W5
     simp only [opsA5]
     after_results_simp
     simp (disch := decide) only [W4_keep, W3_keep, W2_keep, W1_keep, W4_v40]
     rfl)
theorem W6_v49 : W6 V (no_index (Proc.devRef .tc main_v49)) = varRv (rowsR V) := by
  unfold W6
  simp only [opsB1]
  after_results_simp
  simp only [(W5_v V).1]
  generalize rowsR V = o
  rfl
theorem W7_v65 : W7 V (no_index (Proc.devRef .tc main_v65)) = resRv (rowsR V) (V (Proc.devRef .tc main_arg5)) (V (Proc.devRef .tc main_arg6)) := by
  unfold W7
  simp only [opsB2]
  after_results_simp
  simp (disch := decide) only [W6_keep, W5_keep, W4_keep, W3_keep, W2_keep, W1_keep, (W5_v V).1, (W5_v V).2, W6_v49]
  generalize rowsR V = o
  rfl

theorem after_ops : after (ops (F := Ideal)) V = W7 V := by
  simp only [ops, after_append]
  rfl

theorem out_eq (m' : (ℓ : Loc nD τ sig) → Buf (Elt Ideal) ℓ) (c : Dev nD) :
    StableHlo.after (ops (F := Ideal)) (fun b => m' (c, b)) (Proc.devRef .tc main_v65)
      = Cert.RefMath.resRv (Cert.RefMath.outRv (Cert.Chain.aggF (F := Ideal)
            (Cert.RefMath.xtR (m' ((c.tc : Thread nD τ).loc main_arg0)) (m' ((c.tc : Thread nD τ).loc main_arg2)))
            (m' ((c.tc : Thread nD τ).loc main_arg1)))
          (m' ((c.tc : Thread nD τ).loc main_arg3))
          (Cert.RefMath.xtR (m' ((c.tc : Thread nD τ).loc main_arg0)) (m' ((c.tc : Thread nD τ).loc main_arg4))))
        (m' ((c.tc : Thread nD τ).loc main_arg5)) (m' ((c.tc : Thread nD τ).loc main_arg6)) :=
  (congrFun (after_ops _) _).trans (W7_v65 _)

end Cert.ReferenceIdeal.Hand

end
-- ==== Proof.PreReal.lean ====
import proofs.«118818_j27127013442152_1_alg».proof.Pre_finite_inputs
import proofs.«118818_j27127013442152_1_alg».proof.Proof.Gen.Pre_finite_inputs
import proofs.«118818_j27127013442152_1_alg».proof.Proof.Spec
import Idealize.ShloMosaic.Lib.ReduceAll
import Idealize.ShloMosaic.Lib.ValueIdx

namespace Cert.PreReal

open Idealize.ShloMosaic Cert.Pre_finite_inputs
open Cert.Spec (IsReal)

instance : Subsingleton (⟨0, ![]⟩ : Shape).Idx := ⟨fun _ _ => funext fun d => d.elim0⟩

-- If the conjunction over all entries of |x| < +∞ is 1, every entry is neither ⊤ nor ⊥: there max x (-x) is ⊤.
theorem isReal_of_all {s : Shape} {axes : List (Fin s.rank)} {x : FVec Ideal s .f32}
    {hb : (⟨0, ![]⟩ : Shape).BroadcastsInDim s (![] : Fin 0 → Fin s.rank)}
    {hr : s.ReducesTo axes ⟨0, ![]⟩} {hu : 0 < (⟨0, ![]⟩ : Shape).numel} {init : IVec ⟨0, ![]⟩ 1}
    {j : (⟨0, ![]⟩ : Shape).Idx}
    (e : Host.reduce IntOp.andi
      (cmpf .olt (Host.absf x) (broadcastInDim s ![] hb (constant (F := Ideal) ⟨0, ![]⟩ .f32 0x7F800000#32)))
      init hr hu j = 1#1)
    (i : s.Idx) : IsReal (x i) := by
  have h : BitVec.ofBool (decide (max (x i) (-(x i)) < Ideal.ofBits .f32 0x7F800000#32)) = 1#1 :=
    Host.reduce_andi_all _ init hr hu j e i
  rw [show Ideal.ofBits .f32 0x7F800000#32 = (⊤ : EReal) by simp [Ideal.ofBits, Ideal.ieee]] at h
  generalize x i = y at h ⊢
  induction y using EReal.rec with
  | coe r => exact ⟨r, rfl⟩
  | _ => simp at h

theorem real_of_pre [Facts]
    (a0 : FVec Ideal S100000x64 .f32) (a1 : IVec S2x1600000 32)
    (a2 : FVec Ideal S64x128 .f32) (a3 : FVec Ideal S128 .f32)
    (a4 : FVec Ideal S64x128 .f32) (a5 a6 : FVec Ideal S128 .f32)
    (h : fn (F := Ideal) a0 a1 a2 a3 a4 a5 a6 = (fun _ => 1#1)) :
    (∀ i, IsReal (a0 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ValueIdx.ix0
  dsimp only [fn, fn_part1, andi] at h0
  simp only [IntOp.andi_eq_one] at h0
  obtain ⟨⟨⟨⟨⟨e0, e2⟩, e3⟩, e4⟩, e5⟩, e6⟩ := h0
  exact ⟨isReal_of_all e0, isReal_of_all e2, isReal_of_all e3, isReal_of_all e4, isReal_of_all e5, isReal_of_all e6⟩

end Cert.PreReal
-- ==== Proof.Bridge.lean ====
import proofs.«118818_j27127013442152_1_alg».proof.Proof.Spec
import proofs.«118818_j27127013442152_1_alg».proof.Proof.Chain
import proofs.«118818_j27127013442152_1_alg».proof.Proof.RefMath
import proofs.«118818_j27127013442152_1_alg».proof.Proof.PreReal
import Idealize.ShloMosaic.Lib.ValueIdx

namespace Cert.Bridge

open Idealize.ShloMosaic Idealize.ShloMosaic.ValueIdx Cert.Spec Cert.RefMath Cert.Chain Cert.ReferenceIdeal

-- Both projections are the same 64-term sums, the row values differ in the order of two additions, and they are real.
theorem result_eq
    (hagg : ∀ (xt : FVec Ideal Cert.KernelIdeal.S100000x128 .f32) (ei : IVec Cert.KernelIdeal.S2x1600000 32),
      (∀ i, IsReal (xt i)) → ∀ i, IsReal (aggF (F := Ideal) xt ei i))
    (x : FVec Ideal S100000x64 .f32) (ei : IVec S2x1600000 32)
    (w : FVec Ideal S64x128 .f32) (b : FVec Ideal S128 .f32)
    (sw : FVec Ideal S64x128 .f32) (g be : FVec Ideal S128 .f32)
    (hx : ∀ i, IsReal (x i)) (hw : ∀ i, IsReal (w i)) (hb : ∀ i, IsReal (b i)) (hsw : ∀ i, IsReal (sw i))
    (xtK skK : FVec Ideal Cert.KernelIdeal.S100000x128 .f32)
    (hxt : ∀ (p : Fin 100000) (q : Fin 128), xtK (ix2 p q) = ∑ k : Fin 64, x (ix2 p k) * w (ix2 k q))
    (hsk : ∀ (p : Fin 100000) (q : Fin 128), skK (ix2 p q) = ∑ k : Fin 64, x (ix2 p k) * sw (ix2 k q))
    (p : Fin 100000) (q : Fin 128) :
    resK (outK (fun p q => aggF (F := Ideal) xtK ei (ix2 p q)) (fun p q => skK (ix2 p q)) (fun q => b (ix1 q)))
        (fun q => g (ix1 q)) (fun q => be (ix1 q)) p q
      = resRv (outRv (aggF (F := Ideal) (xtR x w) ei) b (xtR x sw)) g be (ix2 p q) := by
  have hix : ∀ i : S100000x128.Idx, ∃ (p : Fin 100000) (q : Fin 128), i = ix2 p q := fun i => ⟨i 0, i 1, eq_ix2 i⟩
  have hdot : ∀ v : FVec Ideal S64x128 .f32, (∀ i, IsReal (v i)) → ∀ i, IsReal (xtR x v i) := fun v hv i => by
    obtain ⟨p, q, rfl⟩ := hix i
    rw [xtR_apply]
    exact isReal_sum _ _ fun k _ => isReal_mul (hx _) (hv _)
  obtain rfl : xtK = xtR x w := funext fun i => by obtain ⟨p, q, rfl⟩ := hix i; rw [hxt, xtR_apply]
  obtain rfl : skK = xtR x sw := funext fun i => by obtain ⟨p, q, rfl⟩ := hix i; rw [hsk, xtR_apply]
  rw [resRv_apply, show (fun p q => outRv (aggF (F := Ideal) (xtR x w) ei) b (xtR x sw) (ix2 p q)) = outR _ _ _ from
    funext fun p => funext fun q => outRv_apply _ _ _ p q, outK_eq_outR]
  exact congrFun (congrFun (res_eq _ _ _ fun p q =>
    isReal_add (isReal_add (hagg _ ei (hdot w hw) _) (hb _)) (hdot sw hsw _)) p) q

end Cert.Bridge
-- ==== Proof.LibScatterAddRows.lean ====
import Idealize.ShloMosaic.Lib.ValueIdx

namespace Idealize.ShloMosaic.ScatterAddRows

open Idealize.ShloMosaic Idealize.ShloMosaic.ValueIdx

/-- The dimension numbers of `x.at[idx[:, 0]].add(u)` for a flat operand `[N]`, destination words `[R, 1]` and updates `[R]`. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- Update `e` starts at its destination word, read signed. -/
theorem flat_start (idx : IVec ⟨2, ![R, 1]⟩ w) (e : Fin R) :
    (flatDims N R wf).start (ix1 e) idx 0 = (idx (ix2 e 0)).toInt := by
  unfold ScatterDims.start
  rw [dif_pos (show (0 : Fin 1) ∈ (flatDims N R wf).scatterDimsToOperandDims from List.mem_singleton.mpr rfl)]
  exact congrArg (fun j => (idx j).toInt) (funext fun b => Fin.ext (match b with | ⟨0, _⟩ => rfl | ⟨1, _⟩ => rfl))

/-- The inserted axis has no window coordinate. -/
theorem flat_window (e : Fin R) : (flatDims N R wf).window (ix1 e) 0 = 0 := by
  unfold ScatterDims.window
  exact dif_neg (show (0 : Fin 1) ∉ (List.finRange 1).filter (· ∉ ([0] : List (Fin 1))) from by decide)

/-- An update whose destination word is `n` lands on row `n`. -/
theorem flat_lands (idx : IVec ⟨2, ![R, 1]⟩ w) (e : Fin R) (n : Fin N) (h : (idx (ix2 e 0)).toInt = (n.val : Int)) :
    (flatDims N R wf).resultIdx? (ix1 e) idx = some (ix1 n) := by
  have hn : n.val < N := n.isLt
  have hs : ∀ a : Fin 1, (flatDims N R wf).start (ix1 e) idx a + ((flatDims N R wf).window (ix1 e) a : Int) = (n.val : Int) := fun a => by
    obtain rfl : a = 0 := Subsingleton.elim _ _
    rw [flat_start, flat_window, h]
    omega
  unfold ScatterDims.resultIdx?
  rw [dif_pos fun a => by
    rw [hs a]
    obtain rfl : a = 0 := Subsingleton.elim _ _
    change (0 : Int) ≤ (n.val : Int) ∧ (n.val : Int) < ((N : Nat) : Int)
    omega]
  exact congrArg some (funext fun a => Fin.ext (by
    obtain rfl : a = 0 := Subsingleton.elim _ _
    show ((flatDims N R wf).start (ix1 e) idx 0 + ((flatDims N R wf).window (ix1 e) 0 : Int)).toNat = n.val
    rw [hs 0]
    omega))

/-- A zero entry plus updates all equal to one is a positive real at a row that some destination word names: the number of such words. -/
theorem scatterAdd_ones_pos (x : FVec Ideal ⟨1, ![N]⟩ .f32) (idx : IVec ⟨2, ![R, 1]⟩ w) (upd : FVec Ideal ⟨1, ![R]⟩ .f32)
    (n : Fin N) (e : Fin R) (hx : x (ix1 n) = 0) (hu : ∀ j, upd j = 1) (h : (idx (ix2 e 0)).toInt = (n.val : Int)) :
    ∃ r : ℝ, 0 < r ∧ Host.scatterAdd (F := Ideal) (flatDims N R wf) x idx upd (ix1 n) = (r : EReal) := by
  refine ⟨(Finset.univ.filter fun j => (flatDims N R wf).resultIdx? j idx = some (ix1 n)).card,
    Nat.cast_pos.2 (Finset.card_pos.2 ⟨ix1 e, Finset.mem_filter.2 ⟨Finset.mem_univ _, flat_lands wf idx e n h⟩⟩), ?_⟩
  show x (ix1 n) + ∑ j ∈ Finset.univ.filter (fun j => (flatDims N R wf).resultIdx? j idx = some (ix1 n)), upd j = _
  rw [hx, zero_add, Finset.sum_congr rfl fun j _ => hu j]
  simp

end Idealize.ShloMosaic.ScatterAddRows
-- ==== Proof.Finite.lean ====
import proofs.«118818_j27127013442152_1_alg».proof.Proof.Chain
import proofs.«118818_j27127013442152_1_alg».proof.Proof.Spec
import proofs.«118818_j27127013442152_1_alg».proof.Proof.LibScatterAddRows
import proofs.«118818_j27127013442152_1_alg».proof.Proof.LibIndexReads
import Idealize.ShloMosaic.PureOps.Ideal.Laws
import Idealize.ShloMosaic.Lib.ValueIdx
import Idealize.ShloMosaic.Lib.Pipeline.Value
import Idealize.ShloMosaic.Lib.IdealHost

namespace Cert.Finite

open Idealize.ShloMosaic Idealize.ShloMosaic.ValueIdx Cert.KernelIdeal Cert.KernelIdeal.Facts₀ Cert.Spec Cert.Chain

attribute [local instance] Cert.KernelIdeal.Gen.facts

-- Real operand plus finitely many real updates: the index words only choose which updates are added.
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) :=
  isReal_add (hx i) (isReal_sum _ _ fun j _ => hu j)

-- Gathering only selects entries.
theorem gather_real {s si t : Shape} {w : Nat} (d : GatherDims s si t) (x : s.Idx → EReal) (idx : IVec si w)
    (hx : ∀ i, IsReal (x i)) (j : t.Idx) : IsReal (Host.gather d x idx j) :=
  hx (d.operandIdx j idx)

-- Broadcasting only repeats entries.
theorem broadcast_real {s t : Shape} (dims : Fin s.rank → Fin t.rank) (h : s.BroadcastsInDim t dims) (x : s.Idx → EReal)
    (hx : ∀ i, IsReal (x i)) (j : t.Idx) : IsReal (broadcastInDim t dims h x j) :=
  hx _

theorem hostRsqrt_apply {s : Shape} (x : FVec Ideal s .f32) (i : s.Idx) :
    Host.rsqrt (F := Ideal) x i = Ideal.rsqrt (x i) := rfl

-- Below 2^31 the signed and unsigned readings agree.
theorem toInt_ofNat_small (k : Nat) (hk : k < 100000) : (BitVec.ofNat 32 k).toInt = (k : Int) := by
  rw [BitVec.toInt_eq_toNat_of_lt (by rw [BitVec.toNat_ofNat]; omega), BitVec.toNat_ofNat]
  omega

-- Past the 1600000 edge targets the column continues 0, 1, 2, …, so position 1600000 + n holds n.
theorem colV_self (ei : IVec S2x1600000 32) (n : Fin 100000) :
    colV ei (ix1 (⟨n.val + 1600000, by have := n.isLt; omega⟩ : Fin 1700000)) = BitVec.ofNat 32 n.val := by
  unfold colV
  refine (concatenate_pair_apply_right 0 _ _ concatenates_S1600000_S100000_S1700000_d0 _ rfl rfl (ix1 n)
    (fun c hc => match c, hc with
      | ⟨0, _⟩, hc => absurd rfl hc) rfl).trans ?_
  rfl

-- The degree of a node counts the target words that name it, and its self loop is one of them.
theorem deg_pos_real (ei : IVec S2x1600000 32) (n : Fin 100000) :
    ∃ r : ℝ, 0 < r ∧ degV (F := Ideal) (colV ei) (ix1 n) = (r : EReal) := by
  unfold degV
  exact ScatterAddRows.scatterAdd_ones_pos scatter_S100000_S1700000x1_S1700000_n_0_0_1_wf _ _ _ n
    ⟨n.val + 1600000, by have := n.isLt; omega⟩
    (by rw [IndexReads.splat_apply, constant_apply, Ideal.ofBits_zero_f32])
    (fun j => by rw [IndexReads.splat_apply, constant_apply, Ideal.ofBits_one_f32])
    (by rw [IndexReads.col_apply, colV_self, toInt_ofNat_small _ n.isLt])

-- The aggregate adds to zero finitely many products of a feature entry and two inverse square roots of positive real degrees.
theorem aggF_real (xt : FVec Ideal S100000x128 .f32) (ei : IVec S2x1600000 32) (hxt : ∀ i, Cert.Spec.IsReal (xt i)) :
    ∀ i, Cert.Spec.IsReal (Cert.Chain.aggF (F := Ideal) xt ei i) := by
  have hd : ∀ i, IsReal (Host.rsqrt (degV (F := Ideal) (colV ei)) i) := fun i => by
    obtain ⟨n, rfl⟩ : ∃ n : Fin 100000, i = ix1 n := ⟨i 0, eq_ix1 i⟩
    obtain ⟨r, hr, h⟩ := deg_pos_real ei n
    rw [hostRsqrt_apply, h, Ideal.rsqrt_coe, if_neg (not_lt.2 hr.le), if_neg hr.ne']
    exact ⟨_, rfl⟩
  have hn : ∀ e, IsReal (normV (F := Ideal) (rowV ei) (colV ei) e) := fun e => by
    unfold normV
    rw [mulf_apply]
    exact isReal_mul (gather_real _ _ _ hd _) (gather_real _ _ _ hd _)
  intro i
  unfold aggF aggC
  refine scatterAdd_real _ _ _ _ (fun j => ?_) (fun j => ?_) i
  · exact broadcast_real _ _ _ (fun _ => ⟨0, Ideal.ofBits_zero_f32⟩) j
  · unfold msgV
    rw [mulf_apply]
    exact isReal_mul (gather_real _ _ _ hxt _) (broadcast_real _ _ _ (broadcast_real _ _ _ hn) _)

end Cert.Finite
-- ==== Proof.lean ====
import proofs.«118818_j27127013442152_1_alg».proof.Defs
import proofs.«118818_j27127013442152_1_alg».proof.Proof.Gen.Kernel
import proofs.«118818_j27127013442152_1_alg».proof.Proof.Gen.KernelIdeal
import proofs.«118818_j27127013442152_1_alg».proof.Proof.Gen.ReferenceIdeal
import proofs.«118818_j27127013442152_1_alg».proof.Proof.Gen.Pre_finite_inputs
import proofs.«118818_j27127013442152_1_alg».proof.Proof.K.Run
import proofs.«118818_j27127013442152_1_alg».proof.Proof.KI.Run
import proofs.«118818_j27127013442152_1_alg».proof.Proof.KI.Value
import proofs.«118818_j27127013442152_1_alg».proof.Proof.RefRun
import proofs.«118818_j27127013442152_1_alg».proof.Proof.RefRead
import proofs.«118818_j27127013442152_1_alg».proof.Proof.Bridge
import proofs.«118818_j27127013442152_1_alg».proof.Proof.Finite
import proofs.«118818_j27127013442152_1_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_r : Cert.frame_ReferenceIdeal := fun m ρ _ =>
  (Cert.ReferenceIdeal.Hand.run m ρ).mono fun _ h c => (h c).2

theorem preserves : Cert.preserves_Kernel_KernelIdeal := trivial

-- Both results are named entry by entry; on finite inputs every row value is real, so the two normalisations agree.
theorem algebraic : Cert.algebraic_KernelIdeal_ReferenceIdeal := by
  intro m ρ m' ρ' hpre hagree
  refine ⟨fun c => Cert.KernelIdeal.Gen.W6 m ρ c (Proc.devRef .tc Cert.KernelIdeal.main_v54), ?_, ?_⟩
  · exact (Cert.KernelIdeal.Gen.run_all m ρ).mono fun r h c =>
      ⟨h c _ (Cert.KernelIdeal.Gen.mem_uc Cert.KernelIdeal.main_v54 (by decide)),
       Cert.KernelIdeal.Gen.arg_kept m ρ (h c) Cert.KernelIdeal.main_arg0 (by decide),
       Cert.KernelIdeal.Gen.arg_kept m ρ (h c) Cert.KernelIdeal.main_arg1 (by decide),
       Cert.KernelIdeal.Gen.arg_kept m ρ (h c) Cert.KernelIdeal.main_arg2 (by decide),
       Cert.KernelIdeal.Gen.arg_kept m ρ (h c) Cert.KernelIdeal.main_arg3 (by decide),
       Cert.KernelIdeal.Gen.arg_kept m ρ (h c) Cert.KernelIdeal.main_arg4 (by decide),
       Cert.KernelIdeal.Gen.arg_kept m ρ (h c) Cert.KernelIdeal.main_arg5 (by decide),
       Cert.KernelIdeal.Gen.arg_kept m ρ (h c) Cert.KernelIdeal.main_arg6 (by decide)⟩
  · refine (Cert.ReferenceIdeal.Hand.run m' ρ').mono fun r h c => ⟨(h c).1.trans ?_, (h c).2⟩
    obtain ⟨h0, h1, h2, h3, h4, h5, h6⟩ := hagree c
    obtain ⟨rx, rw_, rb, rsw, _, _⟩ := Cert.PreReal.real_of_pre _ _ _ _ _ _ _ (hpre c)
    rw [Cert.ReferenceIdeal.Hand.out_eq m' c]
    funext i
    obtain ⟨p, q, rfl⟩ : ∃ (p : Fin 100000) (q : Fin 128), i = ix2 p q := ⟨i 0, i 1, eq_ix2 i⟩
    refine Eq.trans ?_ (Cert.KernelIdeal.Val.kOut_apply m ρ c p q).symm
    rw [h0, h1, h2, h3, h4, h5, h6]
    exact (Cert.Bridge.result_eq Cert.Finite.aggF_real _ _ _ _ _ _ _ rx rw_ rb rsw (Cert.KernelIdeal.Val.xtK m c) (Cert.KernelIdeal.Val.skK m c)
      (fun p q => Cert.KernelIdeal.Val.xtK_apply m c p q _ _ rfl rfl) (fun p q => Cert.KernelIdeal.Val.skK_apply m c p q _ _ rfl rfl) p q).symm

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
